-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1x64 .f32) (main_arg17 : FVec F S1 .f32) (main_v63 : IVec S_ 1) (main_v67 : IVec S_ 1) : IVec S_ 1 :=
  let main_v68 : IVec S_ 1 := andi main_v63 main_v67
  let main_v69 : FVec F S1x64 .f32 := Host.absf main_arg16
  let main_cst_26 : FVec F S_ .f32 := constant S_ .f32 0x7F800000#32
  let main_v70 : FVec F S1x64 .f32 := broadcastInDim S1x64 ![] bcast_S_S1x64 main_cst_26
  let main_v71 : IVec S1x64 1 := cmpf .olt main_v69 main_v70
  let main_c_27 : IVec S_ 1 := constantI S_ 1 1#1
  let main_v72 : IVec S_ 1 := (fun x v => Host.reduce IntOp.andi x v reducesTo_S1x64_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg13 : FVec F S64 .f32) (main_arg14 : FVec F S64x64 .f32) (main_arg15 : FVec F S64 .f32) (main_arg16 : FVec F S1x64 .f32) (main_arg17 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_v63 main_v67

def fn_part2 {F : FTy → Type} [FloatOps F] (main_arg9 : FVec F S64x128 .f32) (main_arg10 : FVec F S64x128 .f32) (main_arg11 : FVec F S64 .f32) (main_arg12 : FVec F S64x64 .f32) (main_arg13 : FVec F S64 .f32) (main_arg14 : FVec F S64x64 .f32) (main_arg15 : FVec F S64 .f32) (main_arg16 : FVec F S1x64 .f32) (main_arg17 : FVec F S1 .f32) (main_v33 : IVec S_ 1) : IVec S_ 1 :=
  let main_v34 : FVec F S64x128 .f32 := Host.absf main_arg9
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64x128 .f32 := Host.absf main_arg10
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_arg16 main_arg17 main_v48 main_v49 main_v50

def fn_part1 {F : FTy → Type} [FloatOps F] (main_arg6 : FVec F S128x128 .f32) (main_arg7 : FVec F S128x128 .f32) (main_arg8 : FVec F S128 .f32) (main_arg9 : FVec F S64x128 .f32) (main_arg10 : FVec F S64x128 .f32) (main_arg11 : FVec F S64 .f32) (main_arg12 : FVec F S64x64 .f32) (main_arg13 : FVec F S64 .f32) (main_arg14 : FVec F S64x64 .f32) (main_arg15 : FVec F S64 .f32) (main_arg16 : FVec F S1x64 .f32) (main_arg17 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x128 .f32) (main_arg1 : IVec S2x1600000 32) (main_arg2 : IVec S100000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S64x128 .f32) (main_arg10 : FVec F S64x128 .f32) (main_arg11 : FVec F S64 .f32) (main_arg12 : FVec F S64x64 .f32) (main_arg13 : FVec F S64 .f32) (main_arg14 : FVec F S64x64 .f32) (main_arg15 : FVec F S64 .f32) (main_arg16 : FVec F S1x64 .f32) (main_arg17 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S128x64 : Shape := ⟨2, ![128, 64]⟩
abbrev S64x1 : Shape := ⟨2, ![64, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x1 : Shape := ⟨2, ![1, 1]⟩
abbrev S10000x128 : Shape := ⟨2, ![10000, 128]⟩
abbrev S10000x64 : Shape := ⟨2, ![10000, 64]⟩
abbrev S10000x1 : Shape := ⟨2, ![10000, 1]⟩

abbrev nBuf : Space → Nat
  | .hbm => 100
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S64x128, .f32⟩
  | .hbm, ⟨10, _⟩ => ⟨S64x128, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S1x64, .f32⟩
  | .hbm, ⟨17, _⟩ => ⟨S1, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .f32⟩
  | .hbm, ⟨23, _⟩ => ⟨S1600000x1, .f32⟩
  | .hbm, ⟨24, _⟩ => ⟨S_, .f32⟩
  | .hbm, ⟨25, _⟩ => ⟨S100000x1, .f32⟩
  | .hbm, ⟨26, _⟩ => ⟨S1600000x1, .i32⟩
  | .hbm, ⟨27, _⟩ => ⟨S100000x1, .f32⟩
  | .hbm, ⟨28, _⟩ => ⟨S_, .f32⟩
  | .hbm, ⟨29, _⟩ => ⟨S100000x1, .f32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S128x64, .f32⟩
  | .hbm, ⟨39, _⟩ => ⟨S128x64, .f32⟩
  | .hbm, ⟨40, _⟩ => ⟨S64x64, .f32⟩
  | .hbm, ⟨41, _⟩ => ⟨S64x64, .f32⟩
  | .hbm, ⟨42, _⟩ => ⟨S64x1, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x64, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000x64, .f32⟩
  | .hbm, ⟨87, _⟩ => ⟨S_, .f32⟩
  | .hbm, ⟨88, _⟩ => ⟨S100000x64, .f32⟩
  | .hbm, ⟨89, _⟩ => ⟨S1600000x1, .i32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S100000x1, .i32⟩
  | .hbm, ⟨94, _⟩ => ⟨S1x64, .f32⟩
  | .hbm, ⟨95, _⟩ => ⟨S1x64, .f32⟩
  | .hbm, ⟨96, _⟩ => ⟨S1x64, .f32⟩
  | .hbm, ⟨97, _⟩ => ⟨S1x1, .f32⟩
  | .hbm, ⟨98, _⟩ => ⟨S64x1, .f32⟩
  | .hbm, ⟨99, _⟩ => ⟨S64, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S128x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x128, .f32⟩
  | .local _ .vmem, ⟨26, _⟩ => ⟨S10000x128, .f32⟩
  | .local _ .vmem, ⟨27, _⟩ => ⟨S128x64, .f32⟩
  | .local _ .vmem, ⟨28, _⟩ => ⟨S1x64, .f32⟩
  | .local _ .vmem, ⟨29, _⟩ => ⟨S10000x1, .i32⟩
  | .local _ .vmem, ⟨30, _⟩ => ⟨S10000x1, .i32⟩
  | .local _ .vmem, ⟨31, _⟩ => ⟨S64x64, .f32⟩
  | .local _ .vmem, ⟨32, _⟩ => ⟨S1x64, .f32⟩
  | .local _ .vmem, ⟨33, _⟩ => ⟨S64x64, .f32⟩
  | .local _ .vmem, ⟨34, _⟩ => ⟨S1x64, .f32⟩
  | .local _ .vmem, ⟨35, _⟩ => ⟨S64x1, .f32⟩
  | .local _ .vmem, ⟨36, _⟩ => ⟨S1x1, .f32⟩
  | .local _ .vmem, ⟨37, _⟩ => ⟨S64x1, .f32⟩
  | .local _ .vmem, ⟨38, _⟩ => ⟨S64x64, .f32⟩
  | .local _ .vmem, ⟨39, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_cst : Ref sig .tc := ⟨.hbm, 22, rfl⟩
abbrev main_call0_v4 : Ref sig .tc := ⟨.hbm, 23, rfl⟩
abbrev main_call0_cst_0 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_v9 : Ref sig .tc := ⟨.hbm, 30, rfl⟩
abbrev main_call0_cst_2 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_v15 : Ref sig .tc := ⟨.hbm, 37, rfl⟩
abbrev main_call0_v16 : Ref sig .tc := ⟨.hbm, 38, rfl⟩
abbrev main_call0_v17 : Ref sig .tc := ⟨.hbm, 39, rfl⟩
abbrev main_call0_v18 : Ref sig .tc := ⟨.hbm, 40, rfl⟩
abbrev main_call0_v19 : Ref sig .tc := ⟨.hbm, 41, rfl⟩
abbrev main_call0_v20 : Ref sig .tc := ⟨.hbm, 42, rfl⟩
abbrev main_call0_c : Ref sig .tc := ⟨.hbm, 43, rfl⟩
abbrev main_call0_v21 : Ref sig .tc := ⟨.hbm, 44, rfl⟩
abbrev main_call0_v22 : Ref sig .tc := ⟨.hbm, 45, rfl⟩
abbrev main_call0_c_3 : Ref sig .tc := ⟨.hbm, 46, rfl⟩
abbrev main_call0_v23 : Ref sig .tc := ⟨.hbm, 47, rfl⟩
abbrev main_call0_v24 : Ref sig .tc := ⟨.hbm, 48, rfl⟩
abbrev main_call0_v25 : Ref sig .tc := ⟨.hbm, 49, rfl⟩
abbrev main_call0_v26 : Ref sig .tc := ⟨.hbm, 50, rfl⟩
abbrev main_call0_v27 : Ref sig .tc := ⟨.hbm, 51, rfl⟩
abbrev main_call0_cst_4 : Ref sig .tc := ⟨.hbm, 52, rfl⟩
abbrev main_call0_v28 : Ref sig .tc := ⟨.hbm, 53, rfl⟩
abbrev main_call0_v29 : Ref sig .tc := ⟨.hbm, 54, rfl⟩
abbrev main_call0_v30 : Ref sig .tc := ⟨.hbm, 55, rfl⟩
abbrev main_call0_v31 : Ref sig .tc := ⟨.hbm, 56, rfl⟩
abbrev main_call0_v32 : Ref sig .tc := ⟨.hbm, 57, rfl⟩
abbrev main_call0_v33 : Ref sig .tc := ⟨.hbm, 58, rfl⟩
abbrev main_call0_v34 : Ref sig .tc := ⟨.hbm, 59, rfl⟩
abbrev main_call0_c_5 : Ref sig .tc := ⟨.hbm, 60, rfl⟩
abbrev main_call0_v35 : Ref sig .tc := ⟨.hbm, 61, rfl⟩
abbrev main_call0_v36 : Ref sig .tc := ⟨.hbm, 62, rfl⟩
abbrev main_call0_c_6 : Ref sig .tc := ⟨.hbm, 63, rfl⟩
abbrev main_call0_v37 : Ref sig .tc := ⟨.hbm, 64, rfl⟩
abbrev main_call0_v38 : Ref sig .tc := ⟨.hbm, 65, rfl⟩
abbrev main_call0_v39 : Ref sig .tc := ⟨.hbm, 66, rfl⟩
abbrev main_call0_v40 : Ref sig .tc := ⟨.hbm, 67, rfl⟩
abbrev main_call0_v41 : Ref sig .tc := ⟨.hbm, 68, rfl⟩
abbrev main_call0_cst_7 : Ref sig .tc := ⟨.hbm, 69, rfl⟩
abbrev main_call0_v42 : Ref sig .tc := ⟨.hbm, 70, rfl⟩
abbrev main_call0_v43 : Ref sig .tc := ⟨.hbm, 71, rfl⟩
abbrev main_call0_v44 : Ref sig .tc := ⟨.hbm, 72, rfl⟩
abbrev main_call0_v45 : Ref sig .tc := ⟨.hbm, 73, rfl⟩
abbrev main_call0_v46 : Ref sig .tc := ⟨.hbm, 74, rfl⟩
abbrev main_call0_v47 : Ref sig .tc := ⟨.hbm, 75, rfl⟩
abbrev main_call0_v48 : Ref sig .tc := ⟨.hbm, 76, rfl⟩
abbrev main_call0_v49 : Ref sig .tc := ⟨.hbm, 77, rfl⟩
abbrev main_call0_c_8 : Ref sig .tc := ⟨.hbm, 78, rfl⟩
abbrev main_call0_v50 : Ref sig .tc := ⟨.hbm, 79, rfl⟩
abbrev main_call0_v51 : Ref sig .tc := ⟨.hbm, 80, rfl⟩
abbrev main_call0_c_9 : Ref sig .tc := ⟨.hbm, 81, rfl⟩
abbrev main_call0_v52 : Ref sig .tc := ⟨.hbm, 82, rfl⟩
abbrev main_call0_v53 : Ref sig .tc := ⟨.hbm, 83, rfl⟩
abbrev main_call0_v54 : Ref sig .tc := ⟨.hbm, 84, rfl⟩
abbrev main_call0_v55 : Ref sig .tc := ⟨.hbm, 85, rfl⟩
abbrev main_call0_v56 : Ref sig .tc := ⟨.hbm, 86, rfl⟩
abbrev main_call0_cst_10 : Ref sig .tc := ⟨.hbm, 87, rfl⟩
abbrev main_call0_v57 : Ref sig .tc := ⟨.hbm, 88, rfl⟩
abbrev main_call0_v58 : Ref sig .tc := ⟨.hbm, 89, rfl⟩
abbrev main_call0_v59 : Ref sig .tc := ⟨.hbm, 90, rfl⟩
abbrev main_call0_v60 : Ref sig .tc := ⟨.hbm, 91, rfl⟩
abbrev main_call0_v61 : Ref sig .tc := ⟨.hbm, 92, rfl⟩
abbrev main_call0_v62 : Ref sig .tc := ⟨.hbm, 93, rfl⟩
abbrev main_call0_v63 : Ref sig .tc := ⟨.hbm, 94, rfl⟩
abbrev main_call0_v64 : Ref sig .tc := ⟨.hbm, 95, rfl⟩
abbrev main_call0_v65 : Ref sig .tc := ⟨.hbm, 96, rfl⟩
abbrev main_call0_v66 : Ref sig .tc := ⟨.hbm, 97, rfl⟩
abbrev main_call0_v67 : Ref sig .tc := ⟨.hbm, 98, rfl⟩
abbrev main_v0 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg9_0 : Ref sig .tc := ⟨.vmem, 35, rfl⟩
abbrev cc3_stg10_0 : Ref sig .tc := ⟨.vmem, 36, rfl⟩
abbrev cc3_stg11_0 : Ref sig .tc := ⟨.vmem, 37, rfl⟩
abbrev cc3_scratch0 : Ref sig .tc := ⟨.vmem, 38, rfl⟩
abbrev cc3_scratch1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem4_1 : DmaSem sig := 30
abbrev cc3_sem5_0 : DmaSem sig := 31
abbrev cc3_sem6_0 : DmaSem sig := 32
abbrev cc3_sem7_0 : DmaSem sig := 33
abbrev cc3_sem8_0 : DmaSem sig := 34
abbrev cc3_sem9_0 : DmaSem sig := 35
abbrev cc3_sem10_0 : DmaSem sig := 36
abbrev cc3_sem11_0 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v36 : BitVec 1 := Scalar.cmpi .eq arg0 c9_i32
  let v37 : BitVec 32 := Scalar.extui v36
  let c0_i32_21 : BitVec 32 := 0#32
  let v38 : BitVec 1 := Scalar.cmpi .ne v37 c0_i32_21
  v38

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x1 .i32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S64x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x1 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S64x1 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  transposes_S128x128_S128x128_1_0 : S128x128.Transposes [1, 0] S128x128
  transposes_S64x128_S128x64_1_0 : S64x128.Transposes [1, 0] S128x64
  transposes_S64x64_S64x64_1_0 : S64x64.Transposes [1, 0] S64x64
  transposes_S1x64_S64x1_1_0 : S1x64.Transposes [1, 0] S64x1
  bcast_S_S1600000 : S_.BroadcastsInDim S1600000 (![] : Fin 0 → Fin S1600000.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S100000_S100000x1 : S100000.ShapeCasts S100000x1
  shapeCasts_S64_S1x64 : S64.ShapeCasts S1x64
  shapeCasts_S1_S1x1 : S1.ShapeCasts S1x1
  shapeCasts_S64x1_S64 : S64x1.ShapeCasts S64
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S10000x64_S10000x64_0_0 : ∀ a, (![0, 0] : Fin 2 → Nat) a + S10000x64.size a ≤ S10000x64.size a
  h_S10000x64 : 0 < S10000x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S1x64_d1_w32 : S1x64.Iotas .tc 32 [1]
  broadcasts_S10000x1_S10000x64 : S10000x1.Broadcasts S10000x64
  natLt_1_32 : 1 < 32
  broadcasts_S64x1_S64x64 : S64x1.Broadcasts S64x64
  broadcasts_S1x64_S64x64 : S1x64.Broadcasts S64x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  scatter_S100000x1_S1600000x1_S1600000x1_1_0_0_1_wf : ScatterDims.WF S100000x1 S1600000x1 S1600000x1 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  dot_S10000x64_S10000x64_S64x64_0_0_1_1_n_n_wf : DotDims.WF S10000x64 S10000x64 S64x64 [0] [0] [1] [1] [] []
  dot_S10000x64_S10000x1_S64x1_0_0_1_1_n_n_wf : DotDims.WF S10000x64 S10000x1 S64x1 [0] [0] [1] [1] [] []
  dot_S64x64_S64x64_S64x64_1_0_0_1_n_n_wf : DotDims.WF S64x64 S64x64 S64x64 [1] [0] [0] [1] [] []
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .f32 = 32 ∨ (Rect.block (s := S100000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S100000x128.size a
  hwx3_1 : ∀ i : grid3.Coords, EltTy.bits .f32 = 32 ∨ (Rect.block (s := S100000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x1.size a ≤ S100000x1.size a
  hwx3_4 : ∀ i : grid3.Coords, EltTy.bits .i32 = 32 ∨ (Rect.block (s := S100000x1) S10000x1.size (cc3_transform_4 i) (hinb3_4 i)).WholeWords (EltTy.packing .i32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x64.size a ≤ S64x64.size a
  hwx3_7 : ∀ i : grid3.Coords, EltTy.bits .f32 = 32 ∨ (Rect.block (s := S64x64) S64x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x64.size a ≤ S1x64.size a
  hwx3_8 : ∀ i : grid3.Coords, EltTy.bits .f32 = 32 ∨ (Rect.block (s := S1x64) S1x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S64x1.size a ≤ S64x1.size a
  hwx3_9 : ∀ i : grid3.Coords, EltTy.bits .f32 = 32 ∨ (Rect.block (s := S64x1) S64x1.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x1.size a ≤ S1x1.size a
  hwx3_10 : ∀ i : grid3.Coords, EltTy.bits .f32 = 32 ∨ (Rect.block (s := S1x1) S1x1.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S64x1.size a ≤ S64x1.size a
  hwx3_11 : ∀ i : grid3.Coords, EltTy.bits .f32 = 32 ∨ (Rect.block (s := S64x1) S64x1.size (cc3_transform_11 i) (hinb3_11 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S10000x64_S64x64_0_0_1_1_n_n : DotDims S10000x64 S10000x64 S64x64 where
  lhsContracting := [0]
  rhsContracting := [0]
  lhsNonContracting := [1]
  rhsNonContracting := [1]
  lhsBatch := []
  rhsBatch := []
  wf := dot_S10000x64_S10000x64_S64x64_0_0_1_1_n_n_wf
def dot_S10000x64_S10000x1_S64x1_0_0_1_1_n_n : DotDims S10000x64 S10000x1 S64x1 where
  lhsContracting := [0]
  rhsContracting := [0]
  lhsNonContracting := [1]
  rhsNonContracting := [1]
  lhsBatch := []
  rhsBatch := []
  wf := dot_S10000x64_S10000x1_S64x1_0_0_1_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_call0_v32) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v12) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v13) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v33) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v34) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v46) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v34) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v14) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v15) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v47) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v48) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call0_v48) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v16) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v49) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_call0_v61) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v48) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v17) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v63) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v62) S10000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_call0_v18) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_call0_v64) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_call0_v19) S64x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_call0_v65) S1x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_call0_v20) S64x1.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_call0_v66) S1x1.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_call0_v67) S64x1.size cc3_transform_11 reads3_11 true true 1 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

abbrev idle3 : Fin 12 → grid3.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k3_cond2 i == 1#1) | ⟨_ + 12, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S64x1 : Shape := ⟨2, ![64, 1]⟩
abbrev S1x1 : Shape := ⟨2, ![1, 1]⟩

abbrev nBuf : Space → Nat
  | .hbm => 161
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S64x128, .f32⟩
  | 10 => ⟨S64x128, .f32⟩
  | 11 => ⟨S64, .f32⟩
  | 12 => ⟨S64x64, .f32⟩
  | 13 => ⟨S64, .f32⟩
  | 14 => ⟨S64x64, .f32⟩
  | 15 => ⟨S64, .f32⟩
  | 16 => ⟨S1x64, .f32⟩
  | 17 => ⟨S1, .f32⟩
  | 18 => ⟨S1x1600000, .i32⟩
  | 19 => ⟨S1600000, .i32⟩
  | 20 => ⟨S1x1600000, .i32⟩
  | 21 => ⟨S1600000, .i32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S_, .f32⟩
  | 36 => ⟨S1600000x1, .f32⟩
  | 37 => ⟨S_, .f32⟩
  | 38 => ⟨S100000x1, .f32⟩
  | 39 => ⟨S1600000x1, .i32⟩
  | 40 => ⟨S100000x1, .f32⟩
  | 41 => ⟨S_, .f32⟩
  | 42 => ⟨S100000x1, .f32⟩
  | 43 => ⟨S100000x1, .f32⟩
  | 44 => ⟨S100000x128, .f32⟩
  | 45 => ⟨S100000x128, .f32⟩
  | 46 => ⟨S128x128, .f32⟩
  | 47 => ⟨S100000x128, .f32⟩
  | 48 => ⟨S128x128, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S_, .f32⟩
  | 55 => ⟨S100000x128, .f32⟩
  | 56 => ⟨S100000x128, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S_, .f32⟩
  | 67 => ⟨S100000x128, .f32⟩
  | 68 => ⟨S1600000x1, .i32⟩
  | 69 => ⟨S100000x128, .f32⟩
  | 70 => ⟨S_, .f32⟩
  | 71 => ⟨S1600000x1, .f32⟩
  | 72 => ⟨S_, .f32⟩
  | 73 => ⟨S100000x1, .f32⟩
  | 74 => ⟨S1600000x1, .i32⟩
  | 75 => ⟨S100000x1, .f32⟩
  | 76 => ⟨S_, .f32⟩
  | 77 => ⟨S100000x1, .f32⟩
  | 78 => ⟨S100000x1, .f32⟩
  | 79 => ⟨S100000x128, .f32⟩
  | 80 => ⟨S100000x128, .f32⟩
  | 81 => ⟨S128x128, .f32⟩
  | 82 => ⟨S100000x128, .f32⟩
  | 83 => ⟨S128x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x128, .f32⟩
  | 101 => ⟨S_, .f32⟩
  | 102 => ⟨S100000x128, .f32⟩
  | 103 => ⟨S1600000x1, .i32⟩
  | 104 => ⟨S100000x128, .f32⟩
  | 105 => ⟨S_, .f32⟩
  | 106 => ⟨S1600000x1, .f32⟩
  | 107 => ⟨S_, .f32⟩
  | 108 => ⟨S100000x1, .f32⟩
  | 109 => ⟨S1600000x1, .i32⟩
  | 110 => ⟨S100000x1, .f32⟩
  | 111 => ⟨S_, .f32⟩
  | 112 => ⟨S100000x1, .f32⟩
  | 113 => ⟨S100000x1, .f32⟩
  | 114 => ⟨S100000x128, .f32⟩
  | 115 => ⟨S100000x128, .f32⟩
  | 116 => ⟨S128x64, .f32⟩
  | 117 => ⟨S100000x64, .f32⟩
  | 118 => ⟨S128x64, .f32⟩
  | 119 => ⟨S100000x64, .f32⟩
  | 120 => ⟨S100000x64, .f32⟩
  | 121 => ⟨S1x64, .f32⟩
  | 122 => ⟨S100000x64, .f32⟩
  | 123 => ⟨S100000x64, .f32⟩
  | 124 => ⟨S_, .f32⟩
  | 125 => ⟨S64x64, .f32⟩
  | 126 => ⟨S100000x1, .i32⟩
  | 127 => ⟨S64x64, .f32⟩
  | _ => ⟨S100000x128, .f32⟩

abbrev hbmTy0_1 (i : Nat) : BufTy := match i % 128 with
  | 0 => ⟨S_, .f32⟩
  | 1 => ⟨S100000x1, .f32⟩
  | 2 => ⟨S_, .f32⟩
  | 3 => ⟨S64x1, .f32⟩
  | 4 => ⟨S100000x1, .i32⟩
  | 5 => ⟨S64x1, .f32⟩
  | 6 => ⟨S_, .f32⟩
  | 7 => ⟨S64x1, .f32⟩
  | 8 => ⟨S64x1, .f32⟩
  | 9 => ⟨S64x64, .f32⟩
  | 10 => ⟨S64x64, .f32⟩
  | 11 => ⟨S64x64, .f32⟩
  | 12 => ⟨S64x64, .f32⟩
  | 13 => ⟨S1x64, .f32⟩
  | 14 => ⟨S64x64, .f32⟩
  | 15 => ⟨S64x64, .f32⟩
  | 16 => ⟨S_, .f32⟩
  | 17 => ⟨S64x64, .f32⟩
  | 18 => ⟨S64x64, .f32⟩
  | 19 => ⟨S64x64, .f32⟩
  | 20 => ⟨S64x64, .f32⟩
  | 21 => ⟨S1x64, .f32⟩
  | 22 => ⟨S64x64, .f32⟩
  | 23 => ⟨S64x64, .f32⟩
  | 24 => ⟨S_, .f32⟩
  | 25 => ⟨S64x64, .f32⟩
  | 26 => ⟨S64x64, .f32⟩
  | 27 => ⟨S64x1, .f32⟩
  | 28 => ⟨S64x1, .f32⟩
  | 29 => ⟨S1x1, .f32⟩
  | 30 => ⟨S64x1, .f32⟩
  | 31 => ⟨S64x1, .f32⟩
  | 32 => ⟨S64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call0_cst : Ref sig .tc := ⟨.hbm, 54, rfl⟩
abbrev main_call0_v0 : Ref sig .tc := ⟨.hbm, 55, rfl⟩
abbrev main_v30 : Ref sig .tc := ⟨.hbm, 56, rfl⟩
abbrev main_c_4 : Ref sig .tc := ⟨.hbm, 57, rfl⟩
abbrev main_v31 : Ref sig .tc := ⟨.hbm, 58, rfl⟩
abbrev main_v32 : Ref sig .tc := ⟨.hbm, 59, rfl⟩
abbrev main_c_5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_cst_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_9 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_call1_cst : Ref sig .tc := ⟨.hbm, 89, rfl⟩
abbrev main_call1_v0 : Ref sig .tc := ⟨.hbm, 90, rfl⟩
abbrev main_v57 : Ref sig .tc := ⟨.hbm, 91, rfl⟩
abbrev main_c_10 : Ref sig .tc := ⟨.hbm, 92, rfl⟩
abbrev main_v58 : Ref sig .tc := ⟨.hbm, 93, rfl⟩
abbrev main_v59 : Ref sig .tc := ⟨.hbm, 94, rfl⟩
abbrev main_c_11 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_12 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_13 : Ref sig .tc := ⟨.hbm, 105, rfl⟩
abbrev main_v68 : Ref sig .tc := ⟨.hbm, 106, rfl⟩
abbrev main_cst_14 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_15 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_16 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_17 : Ref sig .tc := ⟨.hbm, 128, rfl⟩
abbrev main_v87 : Ref sig .tc := ⟨.hbm, 129, rfl⟩
abbrev main_cst_18 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_19 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_call2_cst : Ref sig .tc := ⟨.hbm, 144, rfl⟩
abbrev main_call2_v0 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_call3_cst : Ref sig .tc := ⟨.hbm, 152, rfl⟩
abbrev main_call3_v0 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64x1 : S_.BroadcastsInDim S64x1 (![] : Fin 0 → Fin S64x1.rank)
  bcast_S64x1_S64x64_0_1 : S64x1.BroadcastsInDim S64x64 (![0, 1] : Fin 2 → Fin S64x64.rank)
  transposes_S64x64_S64x64_1_0 : S64x64.Transposes [1, 0] S64x64
  bcast_S1x64_S64x64_0_1 : S1x64.BroadcastsInDim S64x64 (![0, 1] : Fin 2 → Fin S64x64.rank)
  transposes_S1x64_S64x1_1_0 : S1x64.Transposes [1, 0] S64x1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  scatter_S64x64_S100000x1_S100000x64_1_0_0_1_wf : ScatterDims.WF S64x64 S100000x1 S100000x64 [1] [0] [0] 1
  scatter_S64x1_S100000x1_S100000x1_1_0_0_1_wf : ScatterDims.WF S64x1 S100000x1 S100000x1 [1] [0] [0] 1
  dot_S64x64_S64x64_S64x64_1_0_0_1_n_n_wf : DotDims.WF S64x64 S64x64 S64x64 [1] [0] [0] [1] [] []
  dot_S64x64_S64x1_S64x1_1_0_0_1_n_n_wf : DotDims.WF S64x64 S64x1 S64x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.K.Region0.lean ====
import proofs.«415824_j75625784148324_2_alg».proof.Proof.Gen.Kernel.Launch
import proofs.«415824_j75625784148324_2_alg».proof.Proof.Gen.Kernel.Skeleton
import proofs.«415824_j75625784148324_2_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section
variable {c : Dev nD} (dat : Dat τ (Elt F) Unit ℕ (Pipeline.UD sig nD τ) ℕ cfg0 c) (hA : ∀ w, dat.A w = V c (Pipeline.arrRef spec0 w))
include hA

theorem before0_0_of (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end

abbrev r0_a : Rect S10000x128 := Rect.unit (s := S10000x128) ![0, 0] S10000x128.size inb_S10000x128_S10000x128_0_0
abbrev r0_b : Rect S128x128 := Rect.unit (s := S128x128) ![0, 0] S128x128.size inb_S128x128_S128x128_0_0
abbrev r0_c : Rect S1x128 := Rect.unit (s := S1x128) ![0, 0] S1x128.size inb_S1x128_S1x128_0_0

def out0_5 (x0 : Vec F S10000x128 .f32) (x1 : Vec F S10000x128 .f32) (x2 : Vec F S128x128 .f32) (x3 : Vec F S128x128 .f32) (x4 : Vec F S1x128 .f32) : Vec F S10000x128 .f32 :=
  View.canon [⟨r0_a, k0_pay1 (View.ld x0 r0_a) (View.ld x2 r0_b) (View.ld x1 r0_a) (View.ld x3 r0_b) (View.ld x4 r0_c)⟩]

set_option maxHeartbeats 1000000 in
theorem sound_kernel0 (c : Dev nD) (E : Set ℕ) (i : grid0.Coords)
    (arg1 arg2 arg6 : Memref sig .tc .vmem S10000x128 .f32) (arg3 arg4 : Memref sig .tc .vmem S128x128 .f32) (arg5 : Memref sig .tc .vmem S1x128 .f32)
    (harg1 : arg1.IsWhole) (harg2 : arg2.IsWhole) (harg3 : arg3.IsWhole) (harg4 : arg4.IsWhole) (harg5 : arg5.IsWhole) (harg6 : arg6.IsWhole)
    (x0 x1 : Vec F S10000x128 .f32) (x2 x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__sage_dense_kernel i arg1 harg1 arg2 harg2 arg3 harg3 arg4 harg4 arg5 harg5 arg6 harg6) K := by
  simp only [cc0__sage_dense_kernel_eq_skeleton]; unfold cc0__sage_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S10000x128.size (by rfl))

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem body_obligation0 (c : Dev nD) : BodyObligation (dat0 (F := F) V c) (defs₀ (F := F)) Variants.none () Set.univ := fun t => by
  rw [bigSep_W0, bigSep_W0]
  simp only [show ∀ w i, cfg0.idle w i = false from fun _ _ => rfl,
    before0_0_of V (dat0 V c) (fun _ => rfl) fun _ => rfl,
    before0_1_of V (dat0 V c) (fun _ => rfl) fun _ => rfl,
    before0_2_of V (dat0 V c) (fun _ => rfl) fun _ => rfl,
    before0_3_of V (dat0 V c) (fun _ => rfl) fun _ => rfl,
    before0_4_of V (dat0 V c) (fun _ => rfl) fun _ => rfl]
  rw [show (dat0 V c).owesAt () t.succ = (dat0 V c).owesAt () t.castSucc from rfl]
  dsimp only [dat0]
  change _ ⊢ wp _ _ _ (bodyAt0 t) _
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _
    (iblk0 V c 0 t) (iblk0 V c 1 t) (iblk0 V c 2 t) (iblk0 V c 3 t) (iblk0 V c 4 t) _)
  iframe
  isplitl [H5]; · iexists _; iexact H5
  iintro H; iexact H

end Cert.Kernel.Hand

end
-- ==== Proof.K.Region1.lean ====
import proofs.«415824_j75625784148324_2_alg».proof.Proof.Gen.Kernel.Launch
import proofs.«415824_j75625784148324_2_alg».proof.Proof.Gen.Kernel.Skeleton
import proofs.«415824_j75625784148324_2_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section
variable {c : Dev nD} (dat : Dat τ (Elt F) Unit ℕ (Pipeline.UD sig nD τ) ℕ cfg1 c) (hA : ∀ w, dat.A w = V c (Pipeline.arrRef spec1 w))
include hA

theorem before1_0_of (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

abbrev r1_a : Rect S10000x128 := Rect.unit (s := S10000x128) ![0, 0] S10000x128.size inb_S10000x128_S10000x128_0_0
abbrev r1_b : Rect S128x128 := Rect.unit (s := S128x128) ![0, 0] S128x128.size inb_S128x128_S128x128_0_0
abbrev r1_c : Rect S1x128 := Rect.unit (s := S1x128) ![0, 0] S1x128.size inb_S1x128_S1x128_0_0

def out1_5 (x0 : Vec F S10000x128 .f32) (x1 : Vec F S10000x128 .f32) (x2 : Vec F S128x128 .f32) (x3 : Vec F S128x128 .f32) (x4 : Vec F S1x128 .f32) : Vec F S10000x128 .f32 :=
  View.canon [⟨r1_a, k1_pay1 (View.ld x0 r1_a) (View.ld x2 r1_b) (View.ld x1 r1_a) (View.ld x3 r1_b) (View.ld x4 r1_c)⟩]

set_option maxHeartbeats 1000000 in
theorem sound_kernel1 (c : Dev nD) (E : Set ℕ) (i : grid1.Coords)
    (arg1 arg2 arg6 : Memref sig .tc .vmem S10000x128 .f32) (arg3 arg4 : Memref sig .tc .vmem S128x128 .f32) (arg5 : Memref sig .tc .vmem S1x128 .f32)
    (harg1 : arg1.IsWhole) (harg2 : arg2.IsWhole) (harg3 : arg3.IsWhole) (harg4 : arg4.IsWhole) (harg5 : arg5.IsWhole) (harg6 : arg6.IsWhole)
    (x0 x1 : Vec F S10000x128 .f32) (x2 x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__sage_dense_kernel i arg1 harg1 arg2 harg2 arg3 harg3 arg4 harg4 arg5 harg5 arg6 harg6) K := by
  simp only [cc1__sage_dense_kernel_eq_skeleton]; unfold cc1__sage_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S10000x128.size (by rfl))

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem body_obligation1 (c : Dev nD) : BodyObligation (dat1 (F := F) V c) (defs₀ (F := F)) Variants.none () Set.univ := fun t => by
  rw [bigSep_W1, bigSep_W1]
  simp only [show ∀ w i, cfg1.idle w i = false from fun _ _ => rfl,
    before1_0_of V (dat1 V c) (fun _ => rfl) fun _ => rfl,
    before1_1_of V (dat1 V c) (fun _ => rfl) fun _ => rfl,
    before1_2_of V (dat1 V c) (fun _ => rfl) fun _ => rfl,
    before1_3_of V (dat1 V c) (fun _ => rfl) fun _ => rfl,
    before1_4_of V (dat1 V c) (fun _ => rfl) fun _ => rfl]
  rw [show (dat1 V c).owesAt () t.succ = (dat1 V c).owesAt () t.castSucc from rfl]
  dsimp only [dat1]
  change _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  iframe
  isplitl [H5]; · iexists _; iexact H5
  iintro H; iexact H

end Cert.Kernel.Hand

end
-- ==== Proof.K.Region2.lean ====
import proofs.«415824_j75625784148324_2_alg».proof.Proof.Gen.Kernel.Launch
import proofs.«415824_j75625784148324_2_alg».proof.Proof.Gen.Kernel.Skeleton
import proofs.«415824_j75625784148324_2_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

section
variable {c : Dev nD} (dat : Dat τ (Elt F) Unit ℕ (Pipeline.UD sig nD τ) ℕ cfg2 c) (hA : ∀ w, dat.A w = V c (Pipeline.arrRef spec2 w))
include hA

theorem before2_0_of (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end

abbrev r2_a : Rect S10000x128 := Rect.unit (s := S10000x128) ![0, 0] S10000x128.size inb_S10000x128_S10000x128_0_0
abbrev r2_b : Rect S128x64 := Rect.unit (s := S128x64) ![0, 0] S128x64.size inb_S128x64_S128x64_0_0
abbrev r2_c : Rect S10000x64 := Rect.unit (s := S10000x64) ![0, 0] S10000x64.size inb_S10000x64_S10000x64_0_0

def out2_2 (x0 : Vec F S10000x128 .f32) (x1 : Vec F S128x64 .f32) : Vec F S10000x64 .f32 :=
  View.canon [⟨r2_c, k2_pay1 (View.ld x0 r2_a) (View.ld x1 r2_b)⟩]

set_option maxHeartbeats 1000000 in
theorem sound_kernel2 (c : Dev nD) (E : Set ℕ) (i : grid2.Coords)
    (arg1 : Memref sig .tc .vmem S10000x128 .f32) (harg1 : arg1.IsWhole) (arg2 : Memref sig .tc .vmem S128x64 .f32) (harg2 : arg2.IsWhole)
    (arg3 : Memref sig .tc .vmem S10000x64 .f32) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__project_kernel i arg1 harg1 arg2 harg2 arg3 harg3) K := by
  simp only [cc2__project_kernel_eq_skeleton]; unfold cc2__project_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S10000x64.size (by rfl))

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem after2_2 (c : Dev nD) (t : Fin cfg2.N) : (dat2 V c).after 2 t = out2_2 (iblk2 V c 0 t) (iblk2 V c 1 t) := by dsimp only [dat2]

theorem body_obligation2 (c : Dev nD) : BodyObligation (dat2 (F := F) V c) (defs₀ (F := F)) Variants.none () Set.univ := fun t => by
  rw [bigSep_W2, bigSep_W2]
  simp only [show ∀ w i, cfg2.idle w i = false from fun _ _ => rfl,
    before2_0_of V (dat2 V c) (fun _ => rfl) fun _ => rfl,
    before2_1_of V (dat2 V c) (fun _ => rfl) fun _ => rfl]
  rw [show (dat2 V c).owesAt () t.succ = (dat2 V c).owesAt () t.castSucc from rfl]
  dsimp only [dat2]
  change _ ⊢ wp _ _ _ (bodyAt2 t) _
  iintro ⟨HΦ, Ho, ⟨%d0, H0⟩, ⟨%d1, H1⟩, ⟨%d2, H2⟩⟩
  iapply (sound_kernel2 c Set.univ (grid2.coords t) _ _ _ _ _ _
    (iblk2 V c 0 t) (iblk2 V c 1 t) _)
  iframe
  isplitl [H2]; · iexists _; iexact H2
  iintro H; iexact H

end Cert.Kernel.Hand

end
-- ==== Proof.K.ChainA.lean ====
import proofs.«415824_j75625784148324_2_alg».proof.Proof.K.Region0
import proofs.«415824_j75625784148324_2_alg».proof.Proof.K.Region1
import proofs.«415824_j75625784148324_2_alg».proof.Proof.K.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe

variable {F : FTy → Type} [FloatOps F] (m : (ℓ : Loc nD τ sig) → Buf (Elt F) ℓ)

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
def W5 (c : Dev nD) : Valuation τ sig (Elt F) :=
  Pipeline.withArrays spec2 c (W4 m c) fun w => (dat2 (V4 m) c).arrAt w cfg2.N
abbrev W6 : Dev nD → Valuation τ sig (Elt F) := fun c => StableHlo.after hostOps3 (W5 m c)
abbrev V6 : (c : Dev nD) → (b : Ref sig .tc) → Buf (Elt F) ((c : Thread nD τ).loc b) := fun c b => W6 m c b

theorem W2_arr (c : Dev nD) (w : Fin cfg0.W) :
    W2 m c (Proc.devRef .tc (Pipeline.arrRef spec0 w)) = (dat0 (V1 m) c).arrAt w cfg0.N :=
  Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) :=
  Pipeline.withArrays_of_ne spec0 c _ _ b hb
theorem W4_arr (c : Dev nD) (w : Fin cfg1.W) :
    W4 m c (Proc.devRef .tc (Pipeline.arrRef spec1 w)) = (dat1 (V3 m) c).arrAt w cfg1.N :=
  Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) :=
  Pipeline.withArrays_of_ne spec1 c _ _ b hb
theorem W5_arr (c : Dev nD) (w : Fin cfg2.W) :
    W5 m c (Proc.devRef .tc (Pipeline.arrRef spec2 w)) = (dat2 (V4 m) c).arrAt w cfg2.N :=
  Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) :=
  Pipeline.withArrays_of_ne spec2 c _ _ b hb

end Cert.Kernel.Hand

end
-- ==== Proof.K.Region3Data.lean ====
import proofs.«415824_j75625784148324_2_alg».proof.Proof.Gen.Kernel.Launch
import proofs.«415824_j75625784148324_2_alg».proof.Proof.Gen.Kernel.Skeleton
import proofs.«415824_j75625784148324_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def scAt3 (c : Dev nD) : (n : ℕ) → n < cfg3.N → Vec F S64x64 .f32 × Vec F S64x1 .f32
  | 0, h => (k3_pay6 (iblk3 V c 1 ⟨0, h⟩) (iblk3 V c 2 ⟨0, h⟩) (iblk3 V c 0 ⟨0, h⟩) (iblk3 V c 3 ⟨0, h⟩) (iblk3 V c 4 ⟨0, h⟩) (k3_pay3 (F := F)),
      k3_pay1 (k3_pay7 (iblk3 V c 4 ⟨0, h⟩) (k3_pay4 (F := F))))
  | n + 1, h => (k3_pay6 (iblk3 V c 1 ⟨n + 1, h⟩) (iblk3 V c 2 ⟨n + 1, h⟩) (iblk3 V c 0 ⟨n + 1, h⟩) (iblk3 V c 3 ⟨n + 1, h⟩) (iblk3 V c 4 ⟨n + 1, h⟩) (scAt3 c n (Nat.lt_of_succ_lt h)).1,
      k3_pay1 (k3_pay7 (iblk3 V c 4 ⟨n + 1, h⟩) (scAt3 c n (Nat.lt_of_succ_lt h)).2))

theorem scAt3_zero (c : Dev nD) (h : 0 < cfg3.N) : scAt3 V c 0 h = (k3_pay6 (iblk3 V c 1 ⟨0, h⟩) (iblk3 V c 2 ⟨0, h⟩) (iblk3 V c 0 ⟨0, h⟩) (iblk3 V c 3 ⟨0, h⟩) (iblk3 V c 4 ⟨0, h⟩) (k3_pay3 (F := F)), k3_pay1 (k3_pay7 (iblk3 V c 4 ⟨0, h⟩) (k3_pay4 (F := F)))) := rfl

theorem scAt3_succ (c : Dev nD) (n : ℕ) (h : n + 1 < cfg3.N) : scAt3 V c (n + 1) h = (k3_pay6 (iblk3 V c 1 ⟨n+1, h⟩) (iblk3 V c 2 ⟨n+1, h⟩) (iblk3 V c 0 ⟨n+1, h⟩) (iblk3 V c 3 ⟨n+1, h⟩) (iblk3 V c 4 ⟨n+1, h⟩) (scAt3 V c n (Nat.lt_of_succ_lt h)).1, k3_pay1 (k3_pay7 (iblk3 V c 4 ⟨n+1, h⟩) (scAt3 V c n (Nat.lt_of_succ_lt h)).2)) := rfl

def out3_11 (c : Dev nD) (t : Fin cfg3.N) : Vec F S64x1 .f32 := k3_pay2 (scAt3 V c t.val t.isLt).1 (scAt3 V c t.val t.isLt).2 (iblk3 V c 5 t) (iblk3 V c 6 t) (iblk3 V c 7 t) (iblk3 V c 8 t) (iblk3 V c 9 t) (iblk3 V c 10 t)

abbrev scM3_0 : Memref sig .tc .vmem S64x64 .f32 := Memref.whole cc3_scratch0
abbrev scM3_1 : Memref sig .tc .vmem S64x1 .f32 := Memref.whole cc3_scratch1

def PhiS3 (c : Dev nD) : (n : ℕ) → n ≤ cfg3.N → sProp 𝕄
  | 0, _ => Pipeline.ΦA spec3 c
  | n + 1, hn => iprop(iprop(iprop(owns (c : Thread nD τ) scM3_0 fullShare (scAt3 V c n hn).1 ∗ owns (c : Thread nD τ) scM3_1 fullShare (scAt3 V c n hn).2)
      ∗ Pipeline.scopedRestBut (Ix := Unit) (Name := ℕ) (U := Pipeline.UD sig nD τ) (Lvl := ℕ) (Val := Elt F) spec3 c [cc3_scratch0, cc3_scratch1]) ∗ (∃ r, prngReg c r))

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 V c t
  Φ t := PhiS3 V c t.val (Nat.le_of_lt_succ t.isLt)
  q _ := fullShare
  owed _ := 0

theorem after3_11 (c : Dev nD) (t : Fin cfg3.N) : (dat3 V c).after 11 t = out3_11 V c t := by dsimp only [dat3]

end Cert.Kernel.Hand

end
-- ==== Proof.K.ChainB.lean ====
import proofs.«415824_j75625784148324_2_alg».proof.Proof.K.ChainA
import proofs.«415824_j75625784148324_2_alg».proof.Proof.K.Region3Data

noncomputable section

namespace Cert.Kernel.Hand

open Cert.Kernel Cert.Kernel.Gen
open Idealize.ShloMosaic Idealize.ShloMosaic.TcCoe

variable {F : FTy → Type} [FloatOps F] (m : (ℓ : Loc nD τ sig) → Buf (Elt F) ℓ)

def W7 (c : Dev nD) : Valuation τ sig (Elt F) :=
  Pipeline.withArrays spec3 c (W6 m c) fun w => (dat3 (V6 m) c).arrAt w cfg3.N
abbrev W8 : Dev nD → Valuation τ sig (Elt F) := fun c => StableHlo.after hostOps4 (W7 m c)

theorem W7_arr (c : Dev nD) (w : Fin cfg3.W) :
    W7 m c (Proc.devRef .tc (Pipeline.arrRef spec3 w)) = (dat3 (V6 m) c).arrAt w cfg3.N :=
  Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) :=
  Pipeline.withArrays_of_ne spec3 c _ _ b hb

end Cert.Kernel.Hand

end
-- ==== Proof.K.Region3C.lean ====
import proofs.«415824_j75625784148324_2_alg».proof.Proof.Gen.Kernel.Skeleton
import Idealize.ShloMosaic.Lib.Pipeline.Value
import Idealize.ShloMosaic.Lib.Pipeline.TableIdle

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

theorem hz : (![0, 0] : Fin 2 → Nat) = fun _ => 0 := funext fun a => by fin_cases a <;> rfl

abbrev cond3_1 (i : grid3.Coords) : Prop := (Scalar.cmpi .ne (Scalar.extui (Scalar.cmpi .eq (BitVec.ofNat 32 (i 0).val) 0#32)) 0#32) = 1#1

section
variable (c : Dev nD) {sp : Space} {d : Fin 2 → Nat} {e : EltTy} (m : Memref sig .tc sp ⟨2, d⟩ e) (q : PosShare TreeShare)
  (inb : ∀ a, (![0, 0] : Fin 2 → Nat) a + d a ≤ d a)

-- A points-to over a memref's elements depends only on what the memref reads.
theorem pt_eq_rep (g : m.view.ty.Contents (Elt F)) {X : Shape.Idx ⟨2, d⟩ → Elt F e} (hg : m.view.read (Elt F) g = X) :
    (m.view.loc (c : Thread nD τ) ↦[m.view.set]{q} g : sProp 𝕄) = (m.view.loc (c : Thread nD τ) ↦[m.view.set]{q} m.view.rep X) :=
  pointsTo_congr fun i hi => by
    obtain ⟨x, -, rfl⟩ := Finset.mem_map.mp hi
    rw [View.rep_emb, ← hg, View.read_apply, cast_cast, cast_eq]

-- A store of the whole block, made last, leaves its payload.
theorem pt_store0 (f : m.view.ty.Contents (Elt F)) (w : Shape.Idx ⟨2, d⟩ → Elt F e) (L : List (View.Piece (Elt F) ⟨2, d⟩ e)) :
    (m.view.loc (c : Thread nD τ) ↦[m.view.set]{q} m.view.writes (Elt F) f (⟨Rect.unit ![0, 0] d inb, w⟩ :: L) : sProp 𝕄)
      = (m.view.loc (c : Thread nD τ) ↦[m.view.set]{q} m.view.rep w) :=
  pt_eq_rep c m q _ (by rw [View.read_writes_eq_canon _ _ _ (fun y => ⟨_, List.mem_cons_self, View.mem_set_unit_zero hz inb y⟩), View.canon_cons_unit_zero hz])

-- A load of the whole block reads the contents.
theorem readAt0 (x : Shape.Idx ⟨2, d⟩ → Elt F e) :
    View.readAt (Elt F) m.view (Rect.unit ![0, 0] d inb).toLoadRect (m.view.rep x) = x := by
  rw [View.readAt_eq_ld, View.read_rep, View.ld_unit_zero hz]

-- A load of the whole block after one store of the whole block reads the payload.
theorem readCov0 (w : Shape.Idx ⟨2, d⟩ → Elt F e) :
    m.view.readCov [⟨Rect.unit ![0, 0] d inb, w⟩] (Rect.unit ![0, 0] d inb).toLoadRect = w :=
  View.readCov_unit_zero _ hz inb w

end

variable (c : Dev nD) (E : Set ℕ) (i : grid3.Coords) (arg1 : Memref sig .tc .vmem S10000x64 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S10000x1 .i32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x1 .f32) (harg10 : arg10.IsWhole) (arg11 : Memref sig .tc .vmem S1x1 .f32) (harg11 : arg11.IsWhole) (arg12 : Memref sig .tc .vmem S64x1 .f32) (harg12 : arg12.IsWhole) (arg13 : Memref sig .tc .vmem S64x64 .f32) (harg13 : arg13.IsWhole) (arg14 : Memref sig .tc .vmem S64x1 .f32) (harg14 : arg14.IsWhole)

theorem sound_kernel3_A (hc1 : cond3_1 i) (hc2 : ¬ k3_cond2 i = 1#1)
    (x0 : Vec F S10000x64 .f32) (x1 : Vec F S10000x128 .f32) (x2 : Vec F S128x64 .f32) (x3 : Vec F S1x64 .f32) (x4 : Vec F S10000x1 .i32) (x5 : Vec F S64x64 .f32) (x6 : Vec F S1x64 .f32) (x7 : Vec F S64x64 .f32) (x8 : Vec F S1x64 .f32) (x9 : Vec F S64x1 .f32) (x10 : Vec F S1x1 .f32) (xo : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xo ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xo ∗ owns (c : Thread nD τ) arg13 fullShare (k3_pay6 x1 x2 x0 x3 x4 (k3_pay3 (F := F))) ∗ owns (c : Thread nD τ) arg14 fullShare (k3_pay1 (k3_pay7 x4 (k3_pay4 (F := F))))) -∗ K ⟨⟩))
      ⊢ wp frame (wpE (defs₀ (F := F)) Variants.none c none) E (cc3__finalize_pool_mlp_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc3__finalize_pool_mlp_kernel_eq_skeleton, owns_eq_rep]; unfold cc3__finalize_pool_mlp_kernel_skel
  iintro ⟨H0, H1, H2, H3, H4, H5, H6, H7, H8, H9, H10, H11, ⟨%d12, H12⟩, ⟨%d13, H13⟩, Hk⟩
  sl_exec (disch := first | exact hc1 | exact hc2)
  sl_step
  iapply Hk
  sl_unfold_words
  simp only [readAt0, pt_store0, readCov0]
  iframe

theorem sound_kernel3_B (hc1 : ¬cond3_1 i) (hc2 : ¬ k3_cond2 i = 1#1)
    (x0 : Vec F S10000x64 .f32) (x1 : Vec F S10000x128 .f32) (x2 : Vec F S128x64 .f32) (x3 : Vec F S1x64 .f32) (x4 : Vec F S10000x1 .i32) (x5 : Vec F S64x64 .f32) (x6 : Vec F S1x64 .f32) (x7 : Vec F S64x64 .f32) (x8 : Vec F S1x64 .f32) (x9 : Vec F S64x1 .f32) (x10 : Vec F S1x1 .f32) (xo : Vec F S64x1 .f32) (s0 : Vec F S64x64 .f32) (s1 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xo ∗ owns (c : Thread nD τ) arg13 fullShare s0 ∗ owns (c : Thread nD τ) arg14 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xo ∗ owns (c : Thread nD τ) arg13 fullShare (k3_pay6 x1 x2 x0 x3 x4 s0) ∗ owns (c : Thread nD τ) arg14 fullShare (k3_pay1 (k3_pay7 x4 s1))) -∗ K ⟨⟩))
      ⊢ wp frame (wpE (defs₀ (F := F)) Variants.none c none) E (cc3__finalize_pool_mlp_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc3__finalize_pool_mlp_kernel_eq_skeleton, owns_eq_rep]; unfold cc3__finalize_pool_mlp_kernel_skel
  iintro ⟨H0, H1, H2, H3, H4, H5, H6, H7, H8, H9, H10, H11, H12, H13, Hk⟩
  sl_exec (disch := first | exact hc1 | exact hc2)
  sl_step
  iapply Hk
  sl_unfold_words
  simp only [readAt0, pt_store0]
  iframe

theorem sound_kernel3_C (hc1 : ¬cond3_1 i) (hc2 : k3_cond2 i = 1#1)
    (x0 : Vec F S10000x64 .f32) (x1 : Vec F S10000x128 .f32) (x2 : Vec F S128x64 .f32) (x3 : Vec F S1x64 .f32) (x4 : Vec F S10000x1 .i32) (x5 : Vec F S64x64 .f32) (x6 : Vec F S1x64 .f32) (x7 : Vec F S64x64 .f32) (x8 : Vec F S1x64 .f32) (x9 : Vec F S64x1 .f32) (x10 : Vec F S1x1 .f32) (s0 : Vec F S64x64 .f32) (s1 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare s0 ∗ owns (c : Thread nD τ) arg14 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (k3_pay2 (k3_pay6 x1 x2 x0 x3 x4 s0) (k3_pay1 (k3_pay7 x4 s1)) x5 x6 x7 x8 x9 x10) ∗ owns (c : Thread nD τ) arg13 fullShare (k3_pay6 x1 x2 x0 x3 x4 s0) ∗ owns (c : Thread nD τ) arg14 fullShare (k3_pay1 (k3_pay7 x4 s1))) -∗ K ⟨⟩))
      ⊢ wp frame (wpE (defs₀ (F := F)) Variants.none c none) E (cc3__finalize_pool_mlp_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc3__finalize_pool_mlp_kernel_eq_skeleton, owns_eq_rep]; unfold cc3__finalize_pool_mlp_kernel_skel
  iintro ⟨H0, H1, H2, H3, H4, H5, H6, H7, H8, H9, H10, ⟨%d11, H11⟩, H12, H13, Hk⟩
  sl_exec (disch := first | exact hc1 | exact hc2)
  sl_step
  iapply Hk
  sl_unfold_words
  simp only [readAt0, pt_store0, readCov0]
  iframe

end Cert.Kernel.Hand
-- ==== Proof.K.Region3.lean ====
import proofs.«415824_j75625784148324_2_alg».proof.Proof.K.Region3Data
import proofs.«415824_j75625784148324_2_alg».proof.Proof.K.Region3C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

theorem hcond3_1 : ∀ t : Fin cfg3.N, cond3_1 (grid3.coords t) ↔ t.val = 0 := by decide +kernel
theorem hcond3_2 : ∀ t : Fin cfg3.N, k3_cond2 (grid3.coords t) = 1#1 ↔ t.val = 9 := by decide +kernel

theorem idleAt3_11 : ∀ t : Fin cfg3.N, ¬ k3_cond2 (grid3.coords t) = 1#1 → cfg3.idle 11 (grid3.coords t) = true := by decide +kernel
theorem noFlush3_11 : ∀ t : Fin cfg3.N, ¬ k3_cond2 (grid3.coords t) = 1#1 → (cfg3.win 11).flush t = false := by decide +kernel
theorem liveAt3_11 : ∀ t : Fin cfg3.N, k3_cond2 (grid3.coords t) = 1#1 → cfg3.idle 11 (grid3.coords t) = false := by decide +kernel

theorem before3 (c : Dev nD) (t : Fin cfg3.N) :
    (∀ d, (dat3 V c).before 0 t d = iblk3 V c 0 t) ∧
    (∀ d, (dat3 V c).before 1 t d = iblk3 V c 1 t) ∧
    (∀ d, (dat3 V c).before 2 t d = iblk3 V c 2 t) ∧
    (∀ d, (dat3 V c).before 3 t d = iblk3 V c 3 t) ∧
    (∀ d, (dat3 V c).before 4 t d = iblk3 V c 4 t) ∧
    (∀ d, (dat3 V c).before 5 t d = iblk3 V c 5 t) ∧
    (∀ d, (dat3 V c).before 6 t d = iblk3 V c 6 t) ∧
    (∀ d, (dat3 V c).before 7 t d = iblk3 V c 7 t) ∧
    (∀ d, (dat3 V c).before 8 t d = iblk3 V c 8 t) ∧
    (∀ d, (dat3 V c).before 9 t d = iblk3 V c 9 t) ∧
    (∀ d, (dat3 V c).before 10 t d = iblk3 V c 10 t) := by
  refine ⟨?_, ?_, ?_, ?_, ?_, ?_, ?_, ?_, ?_, ?_, ?_⟩ <;>
    exact fun d => ((dat3 V c).before_in_eq_fetched _ rfl (fun _ => rfl) (fun _ _ _ => rfl) (fun _ => rfl) t d).trans rfl

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := Pipeline.UD sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

set_option maxHeartbeats 4000000 in
-- The point's position picks one of the three triples; the invariant lends it the accumulators and the rest is framed.
theorem body_obligation3 (c : Dev nD) : BodyObligation (dat3 (F := F) V c) (defs₀ (F := F)) Variants.none () Set.univ := fun t => by
  rw [bigSep_W3, bigSep_W3]
  show _
    ⊢ wp frame (wpE (defs₀ (F := F)) Variants.none c none) Set.univ (bodyAt3 t) fun _ =>
      iprop(PhiS3 V c (t.val + 1) t.isLt ∗ (dat3 V c).owesAt () t.castSucc
        ∗ owns (c : Thread nD τ) (st3_0 t) fullShare (iblk3 V c 0 t)
        ∗ owns (c : Thread nD τ) (st3_1 t) fullShare (iblk3 V c 1 t)
        ∗ owns (c : Thread nD τ) (st3_2 t) fullShare (iblk3 V c 2 t)
        ∗ owns (c : Thread nD τ) (st3_3 t) fullShare (iblk3 V c 3 t)
        ∗ owns (c : Thread nD τ) (st3_4 t) fullShare (iblk3 V c 4 t)
        ∗ owns (c : Thread nD τ) (st3_5 t) fullShare (iblk3 V c 5 t)
        ∗ owns (c : Thread nD τ) (st3_6 t) fullShare (iblk3 V c 6 t)
        ∗ owns (c : Thread nD τ) (st3_7 t) fullShare (iblk3 V c 7 t)
        ∗ owns (c : Thread nD τ) (st3_8 t) fullShare (iblk3 V c 8 t)
        ∗ owns (c : Thread nD τ) (st3_9 t) fullShare (iblk3 V c 9 t)
        ∗ owns (c : Thread nD τ) (st3_10 t) fullShare (iblk3 V c 10 t)
        ∗ (dat3 V c).leavesExact 11 t)
  obtain ⟨b0, b1, b2, b3, b4, b5, b6, b7, b8, b9, b10⟩ := before3 V c t
  simp only [b0, b1, b2, b3, b4, b5, b6, b7, b8, b9, b10]
  rw [show (dat3 V c).Φ t.castSucc = PhiS3 V c t.val (Nat.le_of_lt t.isLt) from rfl]
  unfold bodyAt3
  obtain ⟨n, hn⟩ := t
  cases n with
  | zero =>
    have hc1 : cond3_1 (grid3.coords ⟨0, hn⟩) := (hcond3_1 _).mpr rfl
    have hc2 : ¬ k3_cond2 (grid3.coords ⟨0, hn⟩) = 1#1 := fun h => absurd ((hcond3_2 _).mp h) (show (0 : ℕ) ≠ 9 by decide)
    rw [Dat.leavesExact_idle (dat3 V c) 11 _ (idleAt3_11 _ hc2) (noFlush3_11 _ hc2)]
    simp only [PhiS3, PhiA3_eq, scAt3_zero]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (sound_kernel3_A c Set.univ _ _ _ _ _ _ _ _ _ _ _ _ _ _ _ _ _ _ _ _ _ _ _ _ _ _ _ _ _ hc1 hc2 _ _ _ _ _ _ _ _ _ _ _ _ _)
    iframe H0 H1 H2 H3 H4 H5 H6 H7 H8 H9 H10 H11 HS0 HS1
    iintro ⟨H0, H1, H2, H3, H4, H5, H6, H7, H8, H9, H10, H11, HS0, HS1⟩
    iframe HS0 HS1 HR Hg Ho H0 H1 H2 H3 H4 H5 H6 H7 H8 H9 H10
    iexists _; iexact H11
  | succ n =>
    have hc1 : ¬ cond3_1 (grid3.coords ⟨n + 1, hn⟩) := fun h => absurd ((hcond3_1 _).mp h) (Nat.succ_ne_zero n)
    simp only [PhiS3, scAt3_succ]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    by_cases h9 : n + 1 = 9
    · have hc2 : k3_cond2 (grid3.coords ⟨n + 1, hn⟩) = 1#1 := (hcond3_2 _).mpr h9
      rw [show (dat3 V c).leavesExact 11 ⟨n + 1, hn⟩ = owns (c : Thread nD τ) (st3_11 ⟨n + 1, hn⟩) fullShare ((dat3 V c).after 11 ⟨n + 1, hn⟩) from by
        unfold Dat.leavesExact; rw [liveAt3_11 _ hc2], after3_11, out3_11, scAt3_succ]
      iapply (sound_kernel3_C c Set.univ _ _ _ _ _ _ _ _ _ _ _ _ _ _ _ _ _ _ _ _ _ _ _ _ _ _ _ _ _ hc1 hc2 _ _ _ _ _ _ _ _ _ _ _ _ _ _)
      iframe H0 H1 H2 H3 H4 H5 H6 H7 H8 H9 H10 HS0 HS1
      isplitl [H11]; · iexists _; iexact H11
      iintro ⟨H0, H1, H2, H3, H4, H5, H6, H7, H8, H9, H10, H11, HS0, HS1⟩
      iframe HS0 HS1 HR Hg Ho H0 H1 H2 H3 H4 H5 H6 H7 H8 H9 H10
      iexact H11
    · have hc2 : ¬ k3_cond2 (grid3.coords ⟨n + 1, hn⟩) = 1#1 := fun h => h9 ((hcond3_2 _).mp h)
      rw [Dat.leavesExact_idle (dat3 V c) 11 _ (idleAt3_11 _ hc2) (noFlush3_11 _ hc2)]
      iapply (sound_kernel3_B c Set.univ _ _ _ _ _ _ _ _ _ _ _ _ _ _ _ _ _ _ _ _ _ _ _ _ _ _ _ _ _ hc1 hc2 _ _ _ _ _ _ _ _ _ _ _ _ _ _ _)
      iframe H0 H1 H2 H3 H4 H5 H6 H7 H8 H9 H10 H11 HS0 HS1
      iintro ⟨H0, H1, H2, H3, H4, H5, H6, H7, H8, H9, H10, H11, HS0, HS1⟩
      iframe HS0 HS1 HR Hg Ho H0 H1 H2 H3 H4 H5 H6 H7 H8 H9 H10
      iexists _; iexact H11

theorem hin3 (c : Dev nD) : Pipeline.ΦA spec3 c ⊢ (dat3 V c).Φ 0 :=
  Idealize.SL.BI.Entails.refl _

-- The invariant only forgets what the two accumulators hold.
theorem hout3 (c : Dev nD) : (dat3 V c).Φ (Fin.last cfg3.N) ⊢ Pipeline.ΦA spec3 c := by
  rw [show (dat3 V c).Φ (Fin.last cfg3.N) = PhiS3 V c (9 + 1) (by decide) from rfl, PhiS3, PhiA3_eq]
  iintro ⟨⟨⟨HS0, HS1⟩, HR⟩, Hg⟩
  iframe HR Hg
  isplitl [HS0] <;> iexists _ <;> iassumption

end Cert.Kernel.Hand

end
-- ==== Proof.K.Run.lean ====
import proofs.«415824_j75625784148324_2_alg».proof.Proof.K.ChainB
import proofs.«415824_j75625784148324_2_alg».proof.Proof.K.Region3
import proofs.«415824_j75625784148324_2_alg».proof.Proof.Gen.Kernel.Regions

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

section Run

variable (m : (ℓ : Loc nD τ sig) → Buf (Elt F) ℓ) (ρ : Dev nD → PrngReg)

def pdats : (p : Fin 4) → (c : Dev nD) → Dat τ (Elt F) Unit ℕ (Pipeline.UD sig nD τ) ℕ (Pipeline.pin (pcfgs (F := F)) adm p) c
  | ⟨0, _⟩ => dat0 (V1 m)
  | ⟨1, _⟩ => dat1 (V3 m)
  | ⟨2, _⟩ => dat2 (V4 m)
  | ⟨3, _⟩ => dat3 (V6 m)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- One region as a step between valuations of the buffers: only its own arrays change, to what `arrAt · N` says. -/
def reg (p : Fin 4) (lf : Pipeline.LaunchFacts (nD := nD) (τ := τ) cfgs p) (Wi : Dev nD → Valuation τ sig (Elt F))
    (hb : ∀ c, BodyObligation (pdats m p c) (defs₀ (F := F)) 𝒱₀ () Set.univ)
    (hA : ∀ c w, (pdats m p c).A w = Wi c (Proc.devRef .tc (Pipeline.arrRef (cfgs p).spec w)) := by intros; rfl)
    (hq : ∀ c w, (pdats m p c).q w = fullShare := by intros; rfl) (h0 : ∀ c t, (pdats m p c).owed t = 0 := by intros; rfl)
    (hr : ∀ c, (pdats m p c).recorded 0 = Set.univ := by intros; rfl)
    (hi : ∀ c, Pipeline.ΦA (cfgs p).spec c ⊢ (pdats m p c).Φ 0 := by exact fun _ => .rfl)
    (ho : ∀ c, (pdats m p c).Φ (Fin.last _) ⊢ Pipeline.ΦA (cfgs p).spec c := by exact fun _ => .rfl) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (Wi c) ∗ R c)
  post c := iprop(StableHlo.held (c : Thread nD τ) (Pipeline.ucRefs τ sig)
    (Pipeline.withArrays (cfgs p).spec c (Wi c) fun w => (pdats m p c).arrAt w (cfgs p).N) ∗ R c)
  X c := iprop(∃ r, prngReg c r)
  Y c := iprop(∃ r, prngReg c r)
  Z c := Pipeline.unscopedRest (cfgs p).spec c fun b => Wi c b
  hentry c := by
    rw [Pipeline.ownSems0_none]
    have hsplit := Pipeline.arrays_of_unscopedBufs (p := p) (pcfgs (F := F)) adm (pdats m) lf.win lf.arr_whole c
      ((pdats m p c).share_full (hq c)) (fun b => Wi c b) (hA c)
    rw [Pipeline.unscopedBufs_held] at hsplit
    iintro ⟨⟨Hub, Hp, HO⟩, -, -⟩
    icases hsplit $$ Hub with ⟨Ha, Hrest⟩
    imodintro
    iframe Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [h0 c, hr c]
      icases HO with ⟨%W, HO⟩; iexists W; isplitr; · ipureintro; exact fun _ _ => Or.inl trivial
      iexact HO
    iframe
  hin c := by
    refine .trans ?_ (hi c); unfold Pipeline.ΦA
    iintro ⟨Hp, -, Hr⟩
    iframe
  hout c := by
    rw [Pipeline.ownSems0_none]
    refine (ho c).trans ?_; unfold Pipeline.ΦA
    iintro ⟨Hr, Hp⟩
    iframe; iempintro
  hexit c := by
    have hjoin := Pipeline.unscopedBufs_of_arrays (p := p) (pcfgs (F := F)) adm
      lf.win lf.arr_whole c (pdats m) ((pdats m p c).share_full (hq c)) (fun b => Wi c b)
      (fun b => Pipeline.withArrays (cfgs p).spec c (Wi c) (fun w => (pdats m p c).arrAt w (cfgs p).N) b) _
      (fun w => (Pipeline.withArrays_arr _ lf.win.arr_inj c _ _ w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; iframe
    isplitl [HY]; · iexact HY
    unfold Pipeline.Dat.owesAt Pipeline.owesWithin; rw [h0 c]
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg m 0 launch0 (W1 m) (body_obligation0 (V1 m))),
    .host (hseg hostOps1 hostOps1_sub hostOps1_fresh (W2 m)),
    .region (reg m 1 launch1 (W3 m) (body_obligation1 (V3 m))),
    .region (reg m 2 launch2 (W4 m) (body_obligation2 (V4 m))),
    .host (hseg hostOps3 hostOps3_sub hostOps3_fresh (W5 m)),
    .region (reg m 3 launch3 (W6 m) (body_obligation3 (V6 m)) (hi := hin3 (V6 m)) (ho := hout3 (V6 m))),
    .host (hseg hostOps4 hostOps4_sub hostOps4_fresh (W7 m)) ]
theorem main_run (c : Dev nD) : main (F := F) c = Pipeline.Seg.run (segs m) := (main_chain c).trans (by chain_rfl)

theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => BI.emp)
    (u₀ := (initOf (Pipeline.cells cfgs cellOf_inj) (Pipeline.launchToks cfgs cellOf_inj), 1))
    (hu₀ := by
      rw [BI.bigSep_emp_const]
      iintro Hu
      icases (ownU_pair _ _) $$ Hu with ⟨HP, -⟩
      imodintro
      isplitl [HP]; · iexact HP
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W8 m c) ∗ ∃ r, prngReg c r))
    (hch := ⟨fun _ => .rfl, fun _ => .rfl, fun _ => .rfl, fun _ => .rfl, fun _ => .rfl, fun _ => .rfl, fun _ => .rfl, fun _ => .rfl,
      fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      iframe)
    (hQ := fun s h c => h c)

end Run

end Cert.Kernel.Hand

end
-- ==== Proof.K.Frame.lean ====
import proofs.«415824_j75625784148324_2_alg».proof.Proof.K.Run

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer no host operation writes and no later region has as a window's array ends as the first region left it. -/
theorem W8_of (c : Dev nD) (b : Ref sig .tc)
    (h : b ∉ hostOps0_W ∧ b ∉ hostOps1_W ∧ b ∉ hostOps3_W ∧ b ∉ hostOps4_W ∧
      (∀ w, Pipeline.arrRef spec1 w ≠ b) ∧ (∀ w, Pipeline.arrRef spec2 w ≠ b) ∧ ∀ w, Pipeline.arrRef spec3 w ≠ b)
    (hr0 : W2 m c (Proc.devRef .tc b) = W1 m c (Proc.devRef .tc b)) :
    W8 m c (Proc.devRef .tc b) = m ((c : Thread nD τ).loc b) :=
  (StableHlo.after_of_writes_sub hostOps4 _ hostOps4_writes h.2.2.2.1).trans <|
  (W7_of_ne m c b h.2.2.2.2.2.2).trans <| (StableHlo.after_of_writes_sub hostOps3 _ hostOps3_writes h.2.2.1).trans <|
  (W5_of_ne m c b h.2.2.2.2.2.1).trans <| (W4_of_ne m c b h.2.2.2.2.1).trans <|
  (StableHlo.after_of_writes_sub hostOps1 _ hostOps1_writes h.2.1).trans <|
  hr0.trans <| (StableHlo.after_of_writes_sub hostOps0 _ hostOps0_writes h.1).trans rfl

theorem kept (c : Dev nD) (b : Ref sig .tc)
    (h : (b ∉ hostOps0_W ∧ b ∉ hostOps1_W ∧ b ∉ hostOps3_W ∧ b ∉ hostOps4_W ∧
      (∀ w, Pipeline.arrRef spec1 w ≠ b) ∧ (∀ w, Pipeline.arrRef spec2 w ≠ b) ∧ ∀ w, Pipeline.arrRef spec3 w ≠ b) ∧
      ∀ w, Pipeline.arrRef spec0 w ≠ b) :
    W8 m c (Proc.devRef .tc b) = m ((c : Thread nD τ).loc b) :=
  W8_of m c b h.1 (W2_of_ne m c b h.2)

theorem W2_main_arg0 (c : Dev nD) : W2 m c (Proc.devRef .tc main_arg0) = W1 m c (Proc.devRef .tc main_arg0) :=
  (W2_arr m c 1).trans (((dat0 (V1 m) c).arrAt_in 1 rfl _).trans (A_eq0 (V1 m) c 1))

/-- Every weakly fair execution ends, the result at the last boundary's contents and every argument as launched. -/
theorem run_value : θ_run defs (onTc (τ := τ) (main (F := F))) ⟨m, fun _ => 0, ρ⟩ (fun r => ∀ c : Dev nD,
      r.2.mem ((c.tc : Thread nD τ).loc main_v0) = W8 m c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => by
    refine ⟨h c _ (mem_uc main_v0 (by decide)),
      (h c _ (mem_uc main_arg0 (by decide))).trans (W8_of m c main_arg0 (by decide) (W2_main_arg0 m c)), ?_⟩
    and_intros <;> exact (h c _ (mem_uc _ (by decide))).trans (kept m c _ (by decide)))
    (run_main m ρ)

end Cert.Kernel.Hand

end
-- ==== Proof.KI.Region0.lean ====
import proofs.«415824_j75625784148324_2_alg».proof.Proof.Gen.KernelIdeal.Launch
import proofs.«415824_j75625784148324_2_alg».proof.Proof.Gen.KernelIdeal.Skeleton
import proofs.«415824_j75625784148324_2_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section
variable {c : Dev nD} (dat : Dat τ (Elt F) Unit ℕ (Pipeline.UD sig nD τ) ℕ cfg0 c) (hA : ∀ w, dat.A w = V c (Pipeline.arrRef spec0 w))
include hA

theorem before0_0_of (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end

abbrev r0_a : Rect S10000x128 := Rect.unit (s := S10000x128) ![0, 0] S10000x128.size inb_S10000x128_S10000x128_0_0
abbrev r0_b : Rect S128x128 := Rect.unit (s := S128x128) ![0, 0] S128x128.size inb_S128x128_S128x128_0_0
abbrev r0_c : Rect S1x128 := Rect.unit (s := S1x128) ![0, 0] S1x128.size inb_S1x128_S1x128_0_0

def out0_5 (x0 : Vec F S10000x128 .f32) (x1 : Vec F S10000x128 .f32) (x2 : Vec F S128x128 .f32) (x3 : Vec F S128x128 .f32) (x4 : Vec F S1x128 .f32) : Vec F S10000x128 .f32 :=
  View.canon [⟨r0_a, k0_pay1 (View.ld x0 r0_a) (View.ld x2 r0_b) (View.ld x1 r0_a) (View.ld x3 r0_b) (View.ld x4 r0_c)⟩]

set_option maxHeartbeats 1000000 in
theorem sound_kernel0 (c : Dev nD) (E : Set ℕ) (i : grid0.Coords)
    (arg1 arg2 arg6 : Memref sig .tc .vmem S10000x128 .f32) (arg3 arg4 : Memref sig .tc .vmem S128x128 .f32) (arg5 : Memref sig .tc .vmem S1x128 .f32)
    (harg1 : arg1.IsWhole) (harg2 : arg2.IsWhole) (harg3 : arg3.IsWhole) (harg4 : arg4.IsWhole) (harg5 : arg5.IsWhole) (harg6 : arg6.IsWhole)
    (x0 x1 : Vec F S10000x128 .f32) (x2 x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__sage_dense_kernel i arg1 harg1 arg2 harg2 arg3 harg3 arg4 harg4 arg5 harg5 arg6 harg6) K := by
  simp only [cc0__sage_dense_kernel_eq_skeleton]; unfold cc0__sage_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S10000x128.size (by rfl))

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem body_obligation0 (c : Dev nD) : BodyObligation (dat0 (F := F) V c) (defs₀ (F := F)) Variants.none () Set.univ := fun t => by
  rw [bigSep_W0, bigSep_W0]
  simp only [show ∀ w i, cfg0.idle w i = false from fun _ _ => rfl,
    before0_0_of V (dat0 V c) (fun _ => rfl) fun _ => rfl,
    before0_1_of V (dat0 V c) (fun _ => rfl) fun _ => rfl,
    before0_2_of V (dat0 V c) (fun _ => rfl) fun _ => rfl,
    before0_3_of V (dat0 V c) (fun _ => rfl) fun _ => rfl,
    before0_4_of V (dat0 V c) (fun _ => rfl) fun _ => rfl]
  rw [show (dat0 V c).owesAt () t.succ = (dat0 V c).owesAt () t.castSucc from rfl]
  dsimp only [dat0]
  change _ ⊢ wp _ _ _ (bodyAt0 t) _
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _
    (iblk0 V c 0 t) (iblk0 V c 1 t) (iblk0 V c 2 t) (iblk0 V c 3 t) (iblk0 V c 4 t) _)
  iframe
  isplitl [H5]; · iexists _; iexact H5
  iintro H; iexact H

end Cert.KernelIdeal.Hand

end
-- ==== Proof.KI.Region1.lean ====
import proofs.«415824_j75625784148324_2_alg».proof.Proof.Gen.KernelIdeal.Launch
import proofs.«415824_j75625784148324_2_alg».proof.Proof.Gen.KernelIdeal.Skeleton
import proofs.«415824_j75625784148324_2_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section
variable {c : Dev nD} (dat : Dat τ (Elt F) Unit ℕ (Pipeline.UD sig nD τ) ℕ cfg1 c) (hA : ∀ w, dat.A w = V c (Pipeline.arrRef spec1 w))
include hA

theorem before1_0_of (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

abbrev r1_a : Rect S10000x128 := Rect.unit (s := S10000x128) ![0, 0] S10000x128.size inb_S10000x128_S10000x128_0_0
abbrev r1_b : Rect S128x128 := Rect.unit (s := S128x128) ![0, 0] S128x128.size inb_S128x128_S128x128_0_0
abbrev r1_c : Rect S1x128 := Rect.unit (s := S1x128) ![0, 0] S1x128.size inb_S1x128_S1x128_0_0

def out1_5 (x0 : Vec F S10000x128 .f32) (x1 : Vec F S10000x128 .f32) (x2 : Vec F S128x128 .f32) (x3 : Vec F S128x128 .f32) (x4 : Vec F S1x128 .f32) : Vec F S10000x128 .f32 :=
  View.canon [⟨r1_a, k1_pay1 (View.ld x0 r1_a) (View.ld x2 r1_b) (View.ld x1 r1_a) (View.ld x3 r1_b) (View.ld x4 r1_c)⟩]

set_option maxHeartbeats 1000000 in
theorem sound_kernel1 (c : Dev nD) (E : Set ℕ) (i : grid1.Coords)
    (arg1 arg2 arg6 : Memref sig .tc .vmem S10000x128 .f32) (arg3 arg4 : Memref sig .tc .vmem S128x128 .f32) (arg5 : Memref sig .tc .vmem S1x128 .f32)
    (harg1 : arg1.IsWhole) (harg2 : arg2.IsWhole) (harg3 : arg3.IsWhole) (harg4 : arg4.IsWhole) (harg5 : arg5.IsWhole) (harg6 : arg6.IsWhole)
    (x0 x1 : Vec F S10000x128 .f32) (x2 x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__sage_dense_kernel i arg1 harg1 arg2 harg2 arg3 harg3 arg4 harg4 arg5 harg5 arg6 harg6) K := by
  simp only [cc1__sage_dense_kernel_eq_skeleton]; unfold cc1__sage_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S10000x128.size (by rfl))

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem body_obligation1 (c : Dev nD) : BodyObligation (dat1 (F := F) V c) (defs₀ (F := F)) Variants.none () Set.univ := fun t => by
  rw [bigSep_W1, bigSep_W1]
  simp only [show ∀ w i, cfg1.idle w i = false from fun _ _ => rfl,
    before1_0_of V (dat1 V c) (fun _ => rfl) fun _ => rfl,
    before1_1_of V (dat1 V c) (fun _ => rfl) fun _ => rfl,
    before1_2_of V (dat1 V c) (fun _ => rfl) fun _ => rfl,
    before1_3_of V (dat1 V c) (fun _ => rfl) fun _ => rfl,
    before1_4_of V (dat1 V c) (fun _ => rfl) fun _ => rfl]
  rw [show (dat1 V c).owesAt () t.succ = (dat1 V c).owesAt () t.castSucc from rfl]
  dsimp only [dat1]
  change _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  iframe
  isplitl [H5]; · iexists _; iexact H5
  iintro H; iexact H

end Cert.KernelIdeal.Hand

end
-- ==== Proof.KI.Region2.lean ====
import proofs.«415824_j75625784148324_2_alg».proof.Proof.Gen.KernelIdeal.Launch
import proofs.«415824_j75625784148324_2_alg».proof.Proof.Gen.KernelIdeal.Skeleton
import proofs.«415824_j75625784148324_2_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

section
variable {c : Dev nD} (dat : Dat τ (Elt F) Unit ℕ (Pipeline.UD sig nD τ) ℕ cfg2 c) (hA : ∀ w, dat.A w = V c (Pipeline.arrRef spec2 w))
include hA

theorem before2_0_of (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end

abbrev r2_a : Rect S10000x128 := Rect.unit (s := S10000x128) ![0, 0] S10000x128.size inb_S10000x128_S10000x128_0_0
abbrev r2_b : Rect S128x64 := Rect.unit (s := S128x64) ![0, 0] S128x64.size inb_S128x64_S128x64_0_0
abbrev r2_c : Rect S10000x64 := Rect.unit (s := S10000x64) ![0, 0] S10000x64.size inb_S10000x64_S10000x64_0_0

def out2_2 (x0 : Vec F S10000x128 .f32) (x1 : Vec F S128x64 .f32) : Vec F S10000x64 .f32 :=
  View.canon [⟨r2_c, k2_pay1 (View.ld x0 r2_a) (View.ld x1 r2_b)⟩]

set_option maxHeartbeats 1000000 in
theorem sound_kernel2 (c : Dev nD) (E : Set ℕ) (i : grid2.Coords)
    (arg1 : Memref sig .tc .vmem S10000x128 .f32) (harg1 : arg1.IsWhole) (arg2 : Memref sig .tc .vmem S128x64 .f32) (harg2 : arg2.IsWhole)
    (arg3 : Memref sig .tc .vmem S10000x64 .f32) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__project_kernel i arg1 harg1 arg2 harg2 arg3 harg3) K := by
  simp only [cc2__project_kernel_eq_skeleton]; unfold cc2__project_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S10000x64.size (by rfl))

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem after2_2 (c : Dev nD) (t : Fin cfg2.N) : (dat2 V c).after 2 t = out2_2 (iblk2 V c 0 t) (iblk2 V c 1 t) := by dsimp only [dat2]

theorem body_obligation2 (c : Dev nD) : BodyObligation (dat2 (F := F) V c) (defs₀ (F := F)) Variants.none () Set.univ := fun t => by
  rw [bigSep_W2, bigSep_W2]
  simp only [show ∀ w i, cfg2.idle w i = false from fun _ _ => rfl,
    before2_0_of V (dat2 V c) (fun _ => rfl) fun _ => rfl,
    before2_1_of V (dat2 V c) (fun _ => rfl) fun _ => rfl]
  rw [show (dat2 V c).owesAt () t.succ = (dat2 V c).owesAt () t.castSucc from rfl]
  dsimp only [dat2]
  change _ ⊢ wp _ _ _ (bodyAt2 t) _
  iintro ⟨HΦ, Ho, ⟨%d0, H0⟩, ⟨%d1, H1⟩, ⟨%d2, H2⟩⟩
  iapply (sound_kernel2 c Set.univ (grid2.coords t) _ _ _ _ _ _
    (iblk2 V c 0 t) (iblk2 V c 1 t) _)
  iframe
  isplitl [H2]; · iexists _; iexact H2
  iintro H; iexact H

end Cert.KernelIdeal.Hand

end
-- ==== Proof.KI.ChainA.lean ====
import proofs.«415824_j75625784148324_2_alg».proof.Proof.KI.Region0
import proofs.«415824_j75625784148324_2_alg».proof.Proof.KI.Region1
import proofs.«415824_j75625784148324_2_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe

variable {F : FTy → Type} [FloatOps F] (m : (ℓ : Loc nD τ sig) → Buf (Elt F) ℓ)

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
def W5 (c : Dev nD) : Valuation τ sig (Elt F) :=
  Pipeline.withArrays spec2 c (W4 m c) fun w => (dat2 (V4 m) c).arrAt w cfg2.N
abbrev W6 : Dev nD → Valuation τ sig (Elt F) := fun c => StableHlo.after hostOps3 (W5 m c)
abbrev V6 : (c : Dev nD) → (b : Ref sig .tc) → Buf (Elt F) ((c : Thread nD τ).loc b) := fun c b => W6 m c b

theorem W2_arr (c : Dev nD) (w : Fin cfg0.W) :
    W2 m c (Proc.devRef .tc (Pipeline.arrRef spec0 w)) = (dat0 (V1 m) c).arrAt w cfg0.N :=
  Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) :=
  Pipeline.withArrays_of_ne spec0 c _ _ b hb
theorem W4_arr (c : Dev nD) (w : Fin cfg1.W) :
    W4 m c (Proc.devRef .tc (Pipeline.arrRef spec1 w)) = (dat1 (V3 m) c).arrAt w cfg1.N :=
  Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) :=
  Pipeline.withArrays_of_ne spec1 c _ _ b hb
theorem W5_arr (c : Dev nD) (w : Fin cfg2.W) :
    W5 m c (Proc.devRef .tc (Pipeline.arrRef spec2 w)) = (dat2 (V4 m) c).arrAt w cfg2.N :=
  Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) :=
  Pipeline.withArrays_of_ne spec2 c _ _ b hb

end Cert.KernelIdeal.Hand

end
-- ==== Proof.KI.Region3Data.lean ====
import proofs.«415824_j75625784148324_2_alg».proof.Proof.Gen.KernelIdeal.Launch
import proofs.«415824_j75625784148324_2_alg».proof.Proof.Gen.KernelIdeal.Skeleton
import proofs.«415824_j75625784148324_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def scAt3 (c : Dev nD) : (n : ℕ) → n < cfg3.N → Vec F S64x64 .f32 × Vec F S64x1 .f32
  | 0, h => (k3_pay6 (iblk3 V c 1 ⟨0, h⟩) (iblk3 V c 2 ⟨0, h⟩) (iblk3 V c 0 ⟨0, h⟩) (iblk3 V c 3 ⟨0, h⟩) (iblk3 V c 4 ⟨0, h⟩) (k3_pay3 (F := F)),
      k3_pay1 (k3_pay7 (iblk3 V c 4 ⟨0, h⟩) (k3_pay4 (F := F))))
  | n + 1, h => (k3_pay6 (iblk3 V c 1 ⟨n + 1, h⟩) (iblk3 V c 2 ⟨n + 1, h⟩) (iblk3 V c 0 ⟨n + 1, h⟩) (iblk3 V c 3 ⟨n + 1, h⟩) (iblk3 V c 4 ⟨n + 1, h⟩) (scAt3 c n (Nat.lt_of_succ_lt h)).1,
      k3_pay1 (k3_pay7 (iblk3 V c 4 ⟨n + 1, h⟩) (scAt3 c n (Nat.lt_of_succ_lt h)).2))

theorem scAt3_zero (c : Dev nD) (h : 0 < cfg3.N) : scAt3 V c 0 h = (k3_pay6 (iblk3 V c 1 ⟨0, h⟩) (iblk3 V c 2 ⟨0, h⟩) (iblk3 V c 0 ⟨0, h⟩) (iblk3 V c 3 ⟨0, h⟩) (iblk3 V c 4 ⟨0, h⟩) (k3_pay3 (F := F)), k3_pay1 (k3_pay7 (iblk3 V c 4 ⟨0, h⟩) (k3_pay4 (F := F)))) := rfl

theorem scAt3_succ (c : Dev nD) (n : ℕ) (h : n + 1 < cfg3.N) : scAt3 V c (n + 1) h = (k3_pay6 (iblk3 V c 1 ⟨n+1, h⟩) (iblk3 V c 2 ⟨n+1, h⟩) (iblk3 V c 0 ⟨n+1, h⟩) (iblk3 V c 3 ⟨n+1, h⟩) (iblk3 V c 4 ⟨n+1, h⟩) (scAt3 V c n (Nat.lt_of_succ_lt h)).1, k3_pay1 (k3_pay7 (iblk3 V c 4 ⟨n+1, h⟩) (scAt3 V c n (Nat.lt_of_succ_lt h)).2)) := rfl

def out3_11 (c : Dev nD) (t : Fin cfg3.N) : Vec F S64x1 .f32 := k3_pay2 (scAt3 V c t.val t.isLt).1 (scAt3 V c t.val t.isLt).2 (iblk3 V c 5 t) (iblk3 V c 6 t) (iblk3 V c 7 t) (iblk3 V c 8 t) (iblk3 V c 9 t) (iblk3 V c 10 t)

abbrev scM3_0 : Memref sig .tc .vmem S64x64 .f32 := Memref.whole cc3_scratch0
abbrev scM3_1 : Memref sig .tc .vmem S64x1 .f32 := Memref.whole cc3_scratch1

def PhiS3 (c : Dev nD) : (n : ℕ) → n ≤ cfg3.N → sProp 𝕄
  | 0, _ => Pipeline.ΦA spec3 c
  | n + 1, hn => iprop(iprop(iprop(owns (c : Thread nD τ) scM3_0 fullShare (scAt3 V c n hn).1 ∗ owns (c : Thread nD τ) scM3_1 fullShare (scAt3 V c n hn).2)
      ∗ Pipeline.scopedRestBut (Ix := Unit) (Name := ℕ) (U := Pipeline.UD sig nD τ) (Lvl := ℕ) (Val := Elt F) spec3 c [cc3_scratch0, cc3_scratch1]) ∗ (∃ r, prngReg c r))

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 V c t
  Φ t := PhiS3 V c t.val (Nat.le_of_lt_succ t.isLt)
  q _ := fullShare
  owed _ := 0

theorem after3_11 (c : Dev nD) (t : Fin cfg3.N) : (dat3 V c).after 11 t = out3_11 V c t := by dsimp only [dat3]

end Cert.KernelIdeal.Hand

end
-- ==== Proof.KI.ChainB.lean ====
import proofs.«415824_j75625784148324_2_alg».proof.Proof.KI.ChainA
import proofs.«415824_j75625784148324_2_alg».proof.Proof.KI.Region3Data

noncomputable section

namespace Cert.KernelIdeal.Hand

open Cert.KernelIdeal Cert.KernelIdeal.Gen
open Idealize.ShloMosaic Idealize.ShloMosaic.TcCoe

variable {F : FTy → Type} [FloatOps F] (m : (ℓ : Loc nD τ sig) → Buf (Elt F) ℓ)

def W7 (c : Dev nD) : Valuation τ sig (Elt F) :=
  Pipeline.withArrays spec3 c (W6 m c) fun w => (dat3 (V6 m) c).arrAt w cfg3.N
abbrev W8 : Dev nD → Valuation τ sig (Elt F) := fun c => StableHlo.after hostOps4 (W7 m c)

theorem W7_arr (c : Dev nD) (w : Fin cfg3.W) :
    W7 m c (Proc.devRef .tc (Pipeline.arrRef spec3 w)) = (dat3 (V6 m) c).arrAt w cfg3.N :=
  Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) :=
  Pipeline.withArrays_of_ne spec3 c _ _ b hb

end Cert.KernelIdeal.Hand

end
-- ==== Proof.KI.Region3C.lean ====
import proofs.«415824_j75625784148324_2_alg».proof.Proof.Gen.KernelIdeal.Skeleton
import Idealize.ShloMosaic.Lib.Pipeline.Value
import Idealize.ShloMosaic.Lib.Pipeline.TableIdle

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

theorem hz : (![0, 0] : Fin 2 → Nat) = fun _ => 0 := funext fun a => by fin_cases a <;> rfl

abbrev cond3_1 (i : grid3.Coords) : Prop := (Scalar.cmpi .ne (Scalar.extui (Scalar.cmpi .eq (BitVec.ofNat 32 (i 0).val) 0#32)) 0#32) = 1#1

section
variable (c : Dev nD) {sp : Space} {d : Fin 2 → Nat} {e : EltTy} (m : Memref sig .tc sp ⟨2, d⟩ e) (q : PosShare TreeShare)
  (inb : ∀ a, (![0, 0] : Fin 2 → Nat) a + d a ≤ d a)

-- A points-to over a memref's elements depends only on what the memref reads.
theorem pt_eq_rep (g : m.view.ty.Contents (Elt F)) {X : Shape.Idx ⟨2, d⟩ → Elt F e} (hg : m.view.read (Elt F) g = X) :
    (m.view.loc (c : Thread nD τ) ↦[m.view.set]{q} g : sProp 𝕄) = (m.view.loc (c : Thread nD τ) ↦[m.view.set]{q} m.view.rep X) :=
  pointsTo_congr fun i hi => by
    obtain ⟨x, -, rfl⟩ := Finset.mem_map.mp hi
    rw [View.rep_emb, ← hg, View.read_apply, cast_cast, cast_eq]

-- A store of the whole block, made last, leaves its payload.
theorem pt_store0 (f : m.view.ty.Contents (Elt F)) (w : Shape.Idx ⟨2, d⟩ → Elt F e) (L : List (View.Piece (Elt F) ⟨2, d⟩ e)) :
    (m.view.loc (c : Thread nD τ) ↦[m.view.set]{q} m.view.writes (Elt F) f (⟨Rect.unit ![0, 0] d inb, w⟩ :: L) : sProp 𝕄)
      = (m.view.loc (c : Thread nD τ) ↦[m.view.set]{q} m.view.rep w) :=
  pt_eq_rep c m q _ (by rw [View.read_writes_eq_canon _ _ _ (fun y => ⟨_, List.mem_cons_self, View.mem_set_unit_zero hz inb y⟩), View.canon_cons_unit_zero hz])

-- A load of the whole block reads the contents.
theorem readAt0 (x : Shape.Idx ⟨2, d⟩ → Elt F e) :
    View.readAt (Elt F) m.view (Rect.unit ![0, 0] d inb).toLoadRect (m.view.rep x) = x := by
  rw [View.readAt_eq_ld, View.read_rep, View.ld_unit_zero hz]

-- A load of the whole block after one store of the whole block reads the payload.
theorem readCov0 (w : Shape.Idx ⟨2, d⟩ → Elt F e) :
    m.view.readCov [⟨Rect.unit ![0, 0] d inb, w⟩] (Rect.unit ![0, 0] d inb).toLoadRect = w :=
  View.readCov_unit_zero _ hz inb w

end

variable (c : Dev nD) (E : Set ℕ) (i : grid3.Coords) (arg1 : Memref sig .tc .vmem S10000x64 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S10000x1 .i32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x1 .f32) (harg10 : arg10.IsWhole) (arg11 : Memref sig .tc .vmem S1x1 .f32) (harg11 : arg11.IsWhole) (arg12 : Memref sig .tc .vmem S64x1 .f32) (harg12 : arg12.IsWhole) (arg13 : Memref sig .tc .vmem S64x64 .f32) (harg13 : arg13.IsWhole) (arg14 : Memref sig .tc .vmem S64x1 .f32) (harg14 : arg14.IsWhole)

theorem sound_kernel3_A (hc1 : cond3_1 i) (hc2 : ¬ k3_cond2 i = 1#1)
    (x0 : Vec F S10000x64 .f32) (x1 : Vec F S10000x128 .f32) (x2 : Vec F S128x64 .f32) (x3 : Vec F S1x64 .f32) (x4 : Vec F S10000x1 .i32) (x5 : Vec F S64x64 .f32) (x6 : Vec F S1x64 .f32) (x7 : Vec F S64x64 .f32) (x8 : Vec F S1x64 .f32) (x9 : Vec F S64x1 .f32) (x10 : Vec F S1x1 .f32) (xo : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xo ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xo ∗ owns (c : Thread nD τ) arg13 fullShare (k3_pay6 x1 x2 x0 x3 x4 (k3_pay3 (F := F))) ∗ owns (c : Thread nD τ) arg14 fullShare (k3_pay1 (k3_pay7 x4 (k3_pay4 (F := F))))) -∗ K ⟨⟩))
      ⊢ wp frame (wpE (defs₀ (F := F)) Variants.none c none) E (cc3__finalize_pool_mlp_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc3__finalize_pool_mlp_kernel_eq_skeleton, owns_eq_rep]; unfold cc3__finalize_pool_mlp_kernel_skel
  iintro ⟨H0, H1, H2, H3, H4, H5, H6, H7, H8, H9, H10, H11, ⟨%d12, H12⟩, ⟨%d13, H13⟩, Hk⟩
  sl_exec (disch := first | exact hc1 | exact hc2)
  sl_step
  iapply Hk
  sl_unfold_words
  simp only [readAt0, pt_store0, readCov0]
  iframe

theorem sound_kernel3_B (hc1 : ¬cond3_1 i) (hc2 : ¬ k3_cond2 i = 1#1)
    (x0 : Vec F S10000x64 .f32) (x1 : Vec F S10000x128 .f32) (x2 : Vec F S128x64 .f32) (x3 : Vec F S1x64 .f32) (x4 : Vec F S10000x1 .i32) (x5 : Vec F S64x64 .f32) (x6 : Vec F S1x64 .f32) (x7 : Vec F S64x64 .f32) (x8 : Vec F S1x64 .f32) (x9 : Vec F S64x1 .f32) (x10 : Vec F S1x1 .f32) (xo : Vec F S64x1 .f32) (s0 : Vec F S64x64 .f32) (s1 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xo ∗ owns (c : Thread nD τ) arg13 fullShare s0 ∗ owns (c : Thread nD τ) arg14 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xo ∗ owns (c : Thread nD τ) arg13 fullShare (k3_pay6 x1 x2 x0 x3 x4 s0) ∗ owns (c : Thread nD τ) arg14 fullShare (k3_pay1 (k3_pay7 x4 s1))) -∗ K ⟨⟩))
      ⊢ wp frame (wpE (defs₀ (F := F)) Variants.none c none) E (cc3__finalize_pool_mlp_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc3__finalize_pool_mlp_kernel_eq_skeleton, owns_eq_rep]; unfold cc3__finalize_pool_mlp_kernel_skel
  iintro ⟨H0, H1, H2, H3, H4, H5, H6, H7, H8, H9, H10, H11, H12, H13, Hk⟩
  sl_exec (disch := first | exact hc1 | exact hc2)
  sl_step
  iapply Hk
  sl_unfold_words
  simp only [readAt0, pt_store0]
  iframe

theorem sound_kernel3_C (hc1 : ¬cond3_1 i) (hc2 : k3_cond2 i = 1#1)
    (x0 : Vec F S10000x64 .f32) (x1 : Vec F S10000x128 .f32) (x2 : Vec F S128x64 .f32) (x3 : Vec F S1x64 .f32) (x4 : Vec F S10000x1 .i32) (x5 : Vec F S64x64 .f32) (x6 : Vec F S1x64 .f32) (x7 : Vec F S64x64 .f32) (x8 : Vec F S1x64 .f32) (x9 : Vec F S64x1 .f32) (x10 : Vec F S1x1 .f32) (s0 : Vec F S64x64 .f32) (s1 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare s0 ∗ owns (c : Thread nD τ) arg14 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (k3_pay2 (k3_pay6 x1 x2 x0 x3 x4 s0) (k3_pay1 (k3_pay7 x4 s1)) x5 x6 x7 x8 x9 x10) ∗ owns (c : Thread nD τ) arg13 fullShare (k3_pay6 x1 x2 x0 x3 x4 s0) ∗ owns (c : Thread nD τ) arg14 fullShare (k3_pay1 (k3_pay7 x4 s1))) -∗ K ⟨⟩))
      ⊢ wp frame (wpE (defs₀ (F := F)) Variants.none c none) E (cc3__finalize_pool_mlp_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc3__finalize_pool_mlp_kernel_eq_skeleton, owns_eq_rep]; unfold cc3__finalize_pool_mlp_kernel_skel
  iintro ⟨H0, H1, H2, H3, H4, H5, H6, H7, H8, H9, H10, ⟨%d11, H11⟩, H12, H13, Hk⟩
  sl_exec (disch := first | exact hc1 | exact hc2)
  sl_step
  iapply Hk
  sl_unfold_words
  simp only [readAt0, pt_store0, readCov0]
  iframe

end Cert.KernelIdeal.Hand
-- ==== Proof.KI.Region3.lean ====
import proofs.«415824_j75625784148324_2_alg».proof.Proof.KI.Region3Data
import proofs.«415824_j75625784148324_2_alg».proof.Proof.KI.Region3C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

theorem hcond3_1 : ∀ t : Fin cfg3.N, cond3_1 (grid3.coords t) ↔ t.val = 0 := by decide +kernel
theorem hcond3_2 : ∀ t : Fin cfg3.N, k3_cond2 (grid3.coords t) = 1#1 ↔ t.val = 9 := by decide +kernel

theorem idleAt3_11 : ∀ t : Fin cfg3.N, ¬ k3_cond2 (grid3.coords t) = 1#1 → cfg3.idle 11 (grid3.coords t) = true := by decide +kernel
theorem noFlush3_11 : ∀ t : Fin cfg3.N, ¬ k3_cond2 (grid3.coords t) = 1#1 → (cfg3.win 11).flush t = false := by decide +kernel
theorem liveAt3_11 : ∀ t : Fin cfg3.N, k3_cond2 (grid3.coords t) = 1#1 → cfg3.idle 11 (grid3.coords t) = false := by decide +kernel

theorem before3 (c : Dev nD) (t : Fin cfg3.N) :
    (∀ d, (dat3 V c).before 0 t d = iblk3 V c 0 t) ∧
    (∀ d, (dat3 V c).before 1 t d = iblk3 V c 1 t) ∧
    (∀ d, (dat3 V c).before 2 t d = iblk3 V c 2 t) ∧
    (∀ d, (dat3 V c).before 3 t d = iblk3 V c 3 t) ∧
    (∀ d, (dat3 V c).before 4 t d = iblk3 V c 4 t) ∧
    (∀ d, (dat3 V c).before 5 t d = iblk3 V c 5 t) ∧
    (∀ d, (dat3 V c).before 6 t d = iblk3 V c 6 t) ∧
    (∀ d, (dat3 V c).before 7 t d = iblk3 V c 7 t) ∧
    (∀ d, (dat3 V c).before 8 t d = iblk3 V c 8 t) ∧
    (∀ d, (dat3 V c).before 9 t d = iblk3 V c 9 t) ∧
    (∀ d, (dat3 V c).before 10 t d = iblk3 V c 10 t) := by
  refine ⟨?_, ?_, ?_, ?_, ?_, ?_, ?_, ?_, ?_, ?_, ?_⟩ <;>
    exact fun d => ((dat3 V c).before_in_eq_fetched _ rfl (fun _ => rfl) (fun _ _ _ => rfl) (fun _ => rfl) t d).trans rfl

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := Pipeline.UD sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

set_option maxHeartbeats 4000000 in
-- The point's position picks one of the three triples; the invariant lends it the accumulators and the rest is framed.
theorem body_obligation3 (c : Dev nD) : BodyObligation (dat3 (F := F) V c) (defs₀ (F := F)) Variants.none () Set.univ := fun t => by
  rw [bigSep_W3, bigSep_W3]
  show _
    ⊢ wp frame (wpE (defs₀ (F := F)) Variants.none c none) Set.univ (bodyAt3 t) fun _ =>
      iprop(PhiS3 V c (t.val + 1) t.isLt ∗ (dat3 V c).owesAt () t.castSucc
        ∗ owns (c : Thread nD τ) (st3_0 t) fullShare (iblk3 V c 0 t)
        ∗ owns (c : Thread nD τ) (st3_1 t) fullShare (iblk3 V c 1 t)
        ∗ owns (c : Thread nD τ) (st3_2 t) fullShare (iblk3 V c 2 t)
        ∗ owns (c : Thread nD τ) (st3_3 t) fullShare (iblk3 V c 3 t)
        ∗ owns (c : Thread nD τ) (st3_4 t) fullShare (iblk3 V c 4 t)
        ∗ owns (c : Thread nD τ) (st3_5 t) fullShare (iblk3 V c 5 t)
        ∗ owns (c : Thread nD τ) (st3_6 t) fullShare (iblk3 V c 6 t)
        ∗ owns (c : Thread nD τ) (st3_7 t) fullShare (iblk3 V c 7 t)
        ∗ owns (c : Thread nD τ) (st3_8 t) fullShare (iblk3 V c 8 t)
        ∗ owns (c : Thread nD τ) (st3_9 t) fullShare (iblk3 V c 9 t)
        ∗ owns (c : Thread nD τ) (st3_10 t) fullShare (iblk3 V c 10 t)
        ∗ (dat3 V c).leavesExact 11 t)
  obtain ⟨b0, b1, b2, b3, b4, b5, b6, b7, b8, b9, b10⟩ := before3 V c t
  simp only [b0, b1, b2, b3, b4, b5, b6, b7, b8, b9, b10]
  rw [show (dat3 V c).Φ t.castSucc = PhiS3 V c t.val (Nat.le_of_lt t.isLt) from rfl]
  unfold bodyAt3
  obtain ⟨n, hn⟩ := t
  cases n with
  | zero =>
    have hc1 : cond3_1 (grid3.coords ⟨0, hn⟩) := (hcond3_1 _).mpr rfl
    have hc2 : ¬ k3_cond2 (grid3.coords ⟨0, hn⟩) = 1#1 := fun h => absurd ((hcond3_2 _).mp h) (show (0 : ℕ) ≠ 9 by decide)
    rw [Dat.leavesExact_idle (dat3 V c) 11 _ (idleAt3_11 _ hc2) (noFlush3_11 _ hc2)]
    simp only [PhiS3, PhiA3_eq, scAt3_zero]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (sound_kernel3_A c Set.univ _ _ _ _ _ _ _ _ _ _ _ _ _ _ _ _ _ _ _ _ _ _ _ _ _ _ _ _ _ hc1 hc2 _ _ _ _ _ _ _ _ _ _ _ _ _)
    iframe H0 H1 H2 H3 H4 H5 H6 H7 H8 H9 H10 H11 HS0 HS1
    iintro ⟨H0, H1, H2, H3, H4, H5, H6, H7, H8, H9, H10, H11, HS0, HS1⟩
    iframe HS0 HS1 HR Hg Ho H0 H1 H2 H3 H4 H5 H6 H7 H8 H9 H10
    iexists _; iexact H11
  | succ n =>
    have hc1 : ¬ cond3_1 (grid3.coords ⟨n + 1, hn⟩) := fun h => absurd ((hcond3_1 _).mp h) (Nat.succ_ne_zero n)
    simp only [PhiS3, scAt3_succ]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    by_cases h9 : n + 1 = 9
    · have hc2 : k3_cond2 (grid3.coords ⟨n + 1, hn⟩) = 1#1 := (hcond3_2 _).mpr h9
      rw [show (dat3 V c).leavesExact 11 ⟨n + 1, hn⟩ = owns (c : Thread nD τ) (st3_11 ⟨n + 1, hn⟩) fullShare ((dat3 V c).after 11 ⟨n + 1, hn⟩) from by
        unfold Dat.leavesExact; rw [liveAt3_11 _ hc2], after3_11, out3_11, scAt3_succ]
      iapply (sound_kernel3_C c Set.univ _ _ _ _ _ _ _ _ _ _ _ _ _ _ _ _ _ _ _ _ _ _ _ _ _ _ _ _ _ hc1 hc2 _ _ _ _ _ _ _ _ _ _ _ _ _ _)
      iframe H0 H1 H2 H3 H4 H5 H6 H7 H8 H9 H10 HS0 HS1
      isplitl [H11]; · iexists _; iexact H11
      iintro ⟨H0, H1, H2, H3, H4, H5, H6, H7, H8, H9, H10, H11, HS0, HS1⟩
      iframe HS0 HS1 HR Hg Ho H0 H1 H2 H3 H4 H5 H6 H7 H8 H9 H10
      iexact H11
    · have hc2 : ¬ k3_cond2 (grid3.coords ⟨n + 1, hn⟩) = 1#1 := fun h => h9 ((hcond3_2 _).mp h)
      rw [Dat.leavesExact_idle (dat3 V c) 11 _ (idleAt3_11 _ hc2) (noFlush3_11 _ hc2)]
      iapply (sound_kernel3_B c Set.univ _ _ _ _ _ _ _ _ _ _ _ _ _ _ _ _ _ _ _ _ _ _ _ _ _ _ _ _ _ hc1 hc2 _ _ _ _ _ _ _ _ _ _ _ _ _ _ _)
      iframe H0 H1 H2 H3 H4 H5 H6 H7 H8 H9 H10 H11 HS0 HS1
      iintro ⟨H0, H1, H2, H3, H4, H5, H6, H7, H8, H9, H10, H11, HS0, HS1⟩
      iframe HS0 HS1 HR Hg Ho H0 H1 H2 H3 H4 H5 H6 H7 H8 H9 H10
      iexists _; iexact H11

theorem hin3 (c : Dev nD) : Pipeline.ΦA spec3 c ⊢ (dat3 V c).Φ 0 :=
  Idealize.SL.BI.Entails.refl _

-- The invariant only forgets what the two accumulators hold.
theorem hout3 (c : Dev nD) : (dat3 V c).Φ (Fin.last cfg3.N) ⊢ Pipeline.ΦA spec3 c := by
  rw [show (dat3 V c).Φ (Fin.last cfg3.N) = PhiS3 V c (9 + 1) (by decide) from rfl, PhiS3, PhiA3_eq]
  iintro ⟨⟨⟨HS0, HS1⟩, HR⟩, Hg⟩
  iframe HR Hg
  isplitl [HS0] <;> iexists _ <;> iassumption

end Cert.KernelIdeal.Hand

end
-- ==== Proof.KI.Run.lean ====
import proofs.«415824_j75625784148324_2_alg».proof.Proof.KI.ChainB
import proofs.«415824_j75625784148324_2_alg».proof.Proof.KI.Region3
import proofs.«415824_j75625784148324_2_alg».proof.Proof.Gen.KernelIdeal.Regions

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

section Run

variable (m : (ℓ : Loc nD τ sig) → Buf (Elt F) ℓ) (ρ : Dev nD → PrngReg)

def pdats : (p : Fin 4) → (c : Dev nD) → Dat τ (Elt F) Unit ℕ (Pipeline.UD sig nD τ) ℕ (Pipeline.pin (pcfgs (F := F)) adm p) c
  | ⟨0, _⟩ => dat0 (V1 m)
  | ⟨1, _⟩ => dat1 (V3 m)
  | ⟨2, _⟩ => dat2 (V4 m)
  | ⟨3, _⟩ => dat3 (V6 m)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- One region as a step between valuations of the buffers: only its own arrays change, to what `arrAt · N` says. -/
def reg (p : Fin 4) (lf : Pipeline.LaunchFacts (nD := nD) (τ := τ) cfgs p) (Wi : Dev nD → Valuation τ sig (Elt F))
    (hb : ∀ c, BodyObligation (pdats m p c) (defs₀ (F := F)) 𝒱₀ () Set.univ)
    (hA : ∀ c w, (pdats m p c).A w = Wi c (Proc.devRef .tc (Pipeline.arrRef (cfgs p).spec w)) := by intros; rfl)
    (hq : ∀ c w, (pdats m p c).q w = fullShare := by intros; rfl) (h0 : ∀ c t, (pdats m p c).owed t = 0 := by intros; rfl)
    (hr : ∀ c, (pdats m p c).recorded 0 = Set.univ := by intros; rfl)
    (hi : ∀ c, Pipeline.ΦA (cfgs p).spec c ⊢ (pdats m p c).Φ 0 := by exact fun _ => .rfl)
    (ho : ∀ c, (pdats m p c).Φ (Fin.last _) ⊢ Pipeline.ΦA (cfgs p).spec c := by exact fun _ => .rfl) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (Wi c) ∗ R c)
  post c := iprop(StableHlo.held (c : Thread nD τ) (Pipeline.ucRefs τ sig)
    (Pipeline.withArrays (cfgs p).spec c (Wi c) fun w => (pdats m p c).arrAt w (cfgs p).N) ∗ R c)
  X c := iprop(∃ r, prngReg c r)
  Y c := iprop(∃ r, prngReg c r)
  Z c := Pipeline.unscopedRest (cfgs p).spec c fun b => Wi c b
  hentry c := by
    rw [Pipeline.ownSems0_none]
    have hsplit := Pipeline.arrays_of_unscopedBufs (p := p) (pcfgs (F := F)) adm (pdats m) lf.win lf.arr_whole c
      ((pdats m p c).share_full (hq c)) (fun b => Wi c b) (hA c)
    rw [Pipeline.unscopedBufs_held] at hsplit
    iintro ⟨⟨Hub, Hp, HO⟩, -, -⟩
    icases hsplit $$ Hub with ⟨Ha, Hrest⟩
    imodintro
    iframe Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [h0 c, hr c]
      icases HO with ⟨%W, HO⟩; iexists W; isplitr; · ipureintro; exact fun _ _ => Or.inl trivial
      iexact HO
    iframe
  hin c := by
    refine .trans ?_ (hi c); unfold Pipeline.ΦA
    iintro ⟨Hp, -, Hr⟩
    iframe
  hout c := by
    rw [Pipeline.ownSems0_none]
    refine (ho c).trans ?_; unfold Pipeline.ΦA
    iintro ⟨Hr, Hp⟩
    iframe; iempintro
  hexit c := by
    have hjoin := Pipeline.unscopedBufs_of_arrays (p := p) (pcfgs (F := F)) adm
      lf.win lf.arr_whole c (pdats m) ((pdats m p c).share_full (hq c)) (fun b => Wi c b)
      (fun b => Pipeline.withArrays (cfgs p).spec c (Wi c) (fun w => (pdats m p c).arrAt w (cfgs p).N) b) _
      (fun w => (Pipeline.withArrays_arr _ lf.win.arr_inj c _ _ w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; iframe
    isplitl [HY]; · iexact HY
    unfold Pipeline.Dat.owesAt Pipeline.owesWithin; rw [h0 c]
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg m 0 launch0 (W1 m) (body_obligation0 (V1 m))),
    .host (hseg hostOps1 hostOps1_sub hostOps1_fresh (W2 m)),
    .region (reg m 1 launch1 (W3 m) (body_obligation1 (V3 m))),
    .region (reg m 2 launch2 (W4 m) (body_obligation2 (V4 m))),
    .host (hseg hostOps3 hostOps3_sub hostOps3_fresh (W5 m)),
    .region (reg m 3 launch3 (W6 m) (body_obligation3 (V6 m)) (hi := hin3 (V6 m)) (ho := hout3 (V6 m))),
    .host (hseg hostOps4 hostOps4_sub hostOps4_fresh (W7 m)) ]
theorem main_run (c : Dev nD) : main (F := F) c = Pipeline.Seg.run (segs m) := (main_chain c).trans (by chain_rfl)

theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => BI.emp)
    (u₀ := (initOf (Pipeline.cells cfgs cellOf_inj) (Pipeline.launchToks cfgs cellOf_inj), 1))
    (hu₀ := by
      rw [BI.bigSep_emp_const]
      iintro Hu
      icases (ownU_pair _ _) $$ Hu with ⟨HP, -⟩
      imodintro
      isplitl [HP]; · iexact HP
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W8 m c) ∗ ∃ r, prngReg c r))
    (hch := ⟨fun _ => .rfl, fun _ => .rfl, fun _ => .rfl, fun _ => .rfl, fun _ => .rfl, fun _ => .rfl, fun _ => .rfl, fun _ => .rfl,
      fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      iframe)
    (hQ := fun s h c => h c)

end Run

end Cert.KernelIdeal.Hand

end
-- ==== Proof.KI.Frame.lean ====
import proofs.«415824_j75625784148324_2_alg».proof.Proof.KI.Run

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer no host operation writes and no later region has as a window's array ends as the first region left it. -/
theorem W8_of (c : Dev nD) (b : Ref sig .tc)
    (h : b ∉ hostOps0_W ∧ b ∉ hostOps1_W ∧ b ∉ hostOps3_W ∧ b ∉ hostOps4_W ∧
      (∀ w, Pipeline.arrRef spec1 w ≠ b) ∧ (∀ w, Pipeline.arrRef spec2 w ≠ b) ∧ ∀ w, Pipeline.arrRef spec3 w ≠ b)
    (hr0 : W2 m c (Proc.devRef .tc b) = W1 m c (Proc.devRef .tc b)) :
    W8 m c (Proc.devRef .tc b) = m ((c : Thread nD τ).loc b) :=
  (StableHlo.after_of_writes_sub hostOps4 _ hostOps4_writes h.2.2.2.1).trans <|
  (W7_of_ne m c b h.2.2.2.2.2.2).trans <| (StableHlo.after_of_writes_sub hostOps3 _ hostOps3_writes h.2.2.1).trans <|
  (W5_of_ne m c b h.2.2.2.2.2.1).trans <| (W4_of_ne m c b h.2.2.2.2.1).trans <|
  (StableHlo.after_of_writes_sub hostOps1 _ hostOps1_writes h.2.1).trans <|
  hr0.trans <| (StableHlo.after_of_writes_sub hostOps0 _ hostOps0_writes h.1).trans rfl

theorem kept (c : Dev nD) (b : Ref sig .tc)
    (h : (b ∉ hostOps0_W ∧ b ∉ hostOps1_W ∧ b ∉ hostOps3_W ∧ b ∉ hostOps4_W ∧
      (∀ w, Pipeline.arrRef spec1 w ≠ b) ∧ (∀ w, Pipeline.arrRef spec2 w ≠ b) ∧ ∀ w, Pipeline.arrRef spec3 w ≠ b) ∧
      ∀ w, Pipeline.arrRef spec0 w ≠ b) :
    W8 m c (Proc.devRef .tc b) = m ((c : Thread nD τ).loc b) :=
  W8_of m c b h.1 (W2_of_ne m c b h.2)

theorem W2_main_arg0 (c : Dev nD) : W2 m c (Proc.devRef .tc main_arg0) = W1 m c (Proc.devRef .tc main_arg0) :=
  (W2_arr m c 1).trans (((dat0 (V1 m) c).arrAt_in 1 rfl _).trans (A_eq0 (V1 m) c 1))

/-- Every weakly fair execution ends, the result at the last boundary's contents and every argument as launched. -/
theorem run_value : θ_run defs (onTc (τ := τ) (main (F := F))) ⟨m, fun _ => 0, ρ⟩ (fun r => ∀ c : Dev nD,
      r.2.mem ((c.tc : Thread nD τ).loc main_v0) = W8 m c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => by
    refine ⟨h c _ (mem_uc main_v0 (by decide)),
      (h c _ (mem_uc main_arg0 (by decide))).trans (W8_of m c main_arg0 (by decide) (W2_main_arg0 m c)), ?_⟩
    and_intros <;> exact (h c _ (mem_uc _ (by decide))).trans (kept m c _ (by decide)))
    (run_main m ρ)

end Cert.KernelIdeal.Hand

end
-- ==== Proof.Val.FinitePre.lean ====
import proofs.«415824_j75625784148324_2_alg».proof.Defs
import proofs.«415824_j75625784148324_2_alg».proof.Proof.Gen.Pre_finite_inputs
import Idealize.ShloMosaic.Lib.ReduceAll
import Idealize.ShloMosaic.Lib.ValueIdx

noncomputable section

namespace Cert.KernelIdeal.Val

open Idealize.ShloMosaic Idealize.ShloMosaic.ValueIdx Idealize.SL.Sem

namespace FinitePre

instance subsingleton_pre_scalar_idx : Subsingleton Cert.Pre_finite_inputs.S_.Idx := ⟨fun a b => funext fun d => d.elim0⟩

-- max x (-x) < ⊤ excludes both infinities.
theorem real_of_abs_lt_top (x : EReal) (h : max x (-x) < ⊤) : ∃ a : ℝ, x = a := by
  induction x using EReal.rec with
  | bot => simp at h
  | coe a => exact ⟨a, rfl⟩
  | top => simp at h

theorem ofBits_inf_eq_top : Ideal.ofBits .f32 0x7F800000#32 = (⊤ : EReal) := by simp [Ideal.ofBits, Ideal.ieee]

theorem all_finite {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32) (init : IVec Cert.Pre_finite_inputs.S_ 1)
    (h : Host.reduce IntOp.andi (cmpf .olt (Host.absf x) (broadcastInDim s ![] hb
      (constant (F := Ideal) Cert.Pre_finite_inputs.S_ .f32 0x7F800000#32))) init hr hu ix0 = 1#1) :
    ∀ i, ∃ a : ℝ, x i = a := fun i => by
  apply real_of_abs_lt_top
  have h' : BitVec.ofBool (decide (max (x i) (-(x i)) < Ideal.ofBits .f32 0x7F800000#32)) = 1#1 :=
    Host.reduce_andi_all _ init hr hu ix0 h i
  rw [ofBits_inf_eq_top] at h'
  by_contra hn
  rw [decide_eq_false hn] at h'
  exact absurd h' (by decide)

end FinitePre

open FinitePre

abbrev RealEntries {s : Shape} (v : FVec Ideal s .f32) : Prop := ∀ i, ∃ a : ℝ, v i = (a : EReal)

-- The test is a left-nested conjunction over the eighteen arguments, the last one outermost.
open Cert.Pre_finite_inputs (fn fn_part1 fn_part2 fn_part3 fn_part4) in
theorem args_finite (m : (ℓ : Loc nD τ sig) → Buf (Elt Ideal) ℓ)
    (hpre : Cert.Pre_KernelIdeal m) (c : Dev nD) :
    RealEntries (s := Cert.Pre_finite_inputs.S100000x128) (m ((c.tc : Thread nD τ).loc main_arg0))
      ∧ RealEntries (s := Cert.Pre_finite_inputs.S128x128) (m ((c.tc : Thread nD τ).loc main_arg3))
      ∧ RealEntries (s := Cert.Pre_finite_inputs.S128x128) (m ((c.tc : Thread nD τ).loc main_arg4))
      ∧ RealEntries (s := Cert.Pre_finite_inputs.S128) (m ((c.tc : Thread nD τ).loc main_arg5))
      ∧ RealEntries (s := Cert.Pre_finite_inputs.S128x128) (m ((c.tc : Thread nD τ).loc main_arg6))
      ∧ RealEntries (s := Cert.Pre_finite_inputs.S128x128) (m ((c.tc : Thread nD τ).loc main_arg7))
      ∧ RealEntries (s := Cert.Pre_finite_inputs.S128) (m ((c.tc : Thread nD τ).loc main_arg8))
      ∧ RealEntries (s := Cert.Pre_finite_inputs.S64x128) (m ((c.tc : Thread nD τ).loc main_arg9)) := by
  have h0 := congrFun (hpre c) ix0
  dsimp only [fn, fn_part1, fn_part2, fn_part3, fn_part4] at h0
  iterate 8 obtain ⟨h0, -⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨all_finite _ _ _ _ _ e0, all_finite _ _ _ _ _ e3, all_finite _ _ _ _ _ e4, all_finite _ _ _ _ _ e5,
    all_finite _ _ _ _ _ e6, all_finite _ _ _ _ _ e7, all_finite _ _ _ _ _ e8, all_finite _ _ _ _ _ e9⟩

end Cert.KernelIdeal.Val
end
-- ==== Proof.Val.Finite.lean ====
import proofs.«415824_j75625784148324_2_alg».proof.Proof.Gen.ReferenceIdeal.Read
import Idealize.ShloMosaic.Lib.ValueIdx
import Idealize.ShloMosaic.PureOps.Ideal.Laws
import Idealize.ShloMosaic.Lib.IdealHost

noncomputable section

open scoped BigOperators

namespace Cert.KernelIdeal.Val

open Idealize.ShloMosaic Idealize.ShloMosaic.ValueIdx
open Cert.ReferenceIdeal Cert.ReferenceIdeal.Gen

namespace Finite

theorem real_add {x y : EReal} (hx : ∃ a : ℝ, x = a) (hy : ∃ b : ℝ, y = b) : ∃ c : ℝ, x + y = c := by
  obtain ⟨a, rfl⟩ := hx; obtain ⟨b, rfl⟩ := hy
  exact ⟨a + b, (EReal.coe_add a b).symm⟩

theorem real_mul {x y : EReal} (hx : ∃ a : ℝ, x = a) (hy : ∃ b : ℝ, y = b) : ∃ c : ℝ, x * y = c := by
  obtain ⟨a, rfl⟩ := hx; obtain ⟨b, rfl⟩ := hy
  exact ⟨a * b, (EReal.coe_mul a b).symm⟩

theorem real_max {x y : EReal} (hx : ∃ a : ℝ, x = a) (hy : ∃ b : ℝ, y = b) : ∃ c : ℝ, max x y = c := by
  obtain ⟨a, rfl⟩ := hx; obtain ⟨b, rfl⟩ := hy
  exact ⟨max a b, EReal.coe_strictMono.monotone.map_max.symm⟩

theorem real_sum {ι : Type} (s : Finset ι) (f : ι → EReal) (h : ∀ i ∈ s, ∃ a : ℝ, f i = a) :
    ∃ a : ℝ, ∑ i ∈ s, f i = a :=
  Finset.sum_induction f (fun x => ∃ a : ℝ, x = a) (fun _ _ => real_add) ⟨0, rfl⟩ h

theorem real_div {x y : EReal} (hx : ∃ a : ℝ, x = a) (hy : ∃ b : ℝ, b ≠ 0 ∧ y = b) : ∃ c : ℝ, Ideal.div x y = c := by
  obtain ⟨a, rfl⟩ := hx; obtain ⟨b, hb, rfl⟩ := hy
  rw [Ideal.div_coe hb]
  exact ⟨a * (1 / b), (EReal.coe_mul a (1 / b)).symm⟩

theorem real_max_one {x : EReal} (hx : ∃ a : ℝ, x = a) : ∃ c : ℝ, c ≠ 0 ∧ max x ((1 : ℝ) : EReal) = c := by
  obtain ⟨a, rfl⟩ := hx
  exact ⟨max a 1, (one_pos.trans_le (le_max_right a 1)).ne', EReal.coe_strictMono.monotone.map_max.symm⟩

abbrev AllReal {ι : Type} (v : ι → EReal) : Prop := ∀ i, ∃ a : ℝ, v i = (a : EReal)

abbrev AllRealNe0 {ι : Type} (v : ι → EReal) : Prop := ∀ i, ∃ a : ℝ, a ≠ 0 ∧ v i = (a : EReal)

section Closure
variable {s t si u : Shape} {w : Nat}

theorem allReal_gather (d : GatherDims s si t) (x : FVec Ideal s .f32) (idx : IVec si w) (hx : AllReal x) :
    AllReal (Host.gather d x idx) := fun j => hx (d.operandIdx j idx)

theorem allReal_broadcastInDim (dims : Fin s.rank → Fin t.rank) (h : s.BroadcastsInDim t dims) (x : FVec Ideal s .f32)
    (hx : AllReal x) : AllReal (broadcastInDim t dims h x) := fun _ => hx _

theorem allRealNe0_broadcastInDim (dims : Fin s.rank → Fin t.rank) (h : s.BroadcastsInDim t dims) (x : FVec Ideal s .f32)
    (hx : AllRealNe0 x) : AllRealNe0 (broadcastInDim t dims h x) := fun _ => hx _

theorem allReal_transpose (perm : List (Fin s.rank)) (h : s.Transposes perm t) (x : FVec Ideal s .f32) (hx : AllReal x) :
    AllReal (transpose t perm x h) := fun j => hx (h.src j)

theorem allReal_scatterAdd (d : ScatterDims s si u) (x : FVec Ideal s .f32) (idx : IVec si w) (upd : FVec Ideal u .f32)
    (hx : AllReal x) (hu : AllReal upd) : AllReal (Host.scatterAdd d x idx upd) := fun i => by
  show ∃ a : ℝ, x i + ∑ j ∈ Finset.univ.filter (fun j => d.resultIdx? j idx = some i), upd j = a
  exact real_add (hx i) (real_sum _ _ fun j _ => hu j)

theorem allReal_dotGeneral {sl sr so : Shape} (d : DotDims sl sr so) (prec : Option ContractPrecision)
    (lhs : FVec Ideal sl .f32) (rhs : FVec Ideal sr .f32) (hl : AllReal lhs) (hr : AllReal rhs) :
    AllReal (Host.dotGeneral d prec lhs rhs) := fun j => by
  show ∃ a : ℝ, FloatOps.dotGeneral d prec .single lhs rhs j = a
  rw [Ideal.dotGeneral_apply]
  exact real_sum _ _ fun k _ => real_mul (hl _) (hr _)

theorem allReal_addf (x y : FVec Ideal s .f32) (hx : AllReal x) (hy : AllReal y) : AllReal (addf x y) :=
  fun i => real_add (hx i) (hy i)

theorem allReal_maximumf (x y : FVec Ideal s .f32) (hx : AllReal x) (hy : AllReal y) : AllReal (maximumf x y) :=
  fun i => real_max (hx i) (hy i)

theorem allReal_divf (x y : FVec Ideal s .f32) (hx : AllReal x) (hy : AllRealNe0 y) : AllReal (Host.divf x y) :=
  fun i => real_div (hx i) (hy i)

theorem allReal_zero : AllReal (constant (F := Ideal) s .f32 0x00000000#32) := fun _ => ⟨0, Ideal.ofBits_zero_f32⟩
theorem allReal_one : AllReal (constant (F := Ideal) s .f32 0x3F800000#32) := fun _ => ⟨1, Ideal.ofBits_one_f32⟩

end Closure

theorem allRealNe0_maximumf_one {s : Shape} (x y : FVec Ideal s .f32) (hx : AllReal x) (hy : ∀ i, y i = ((1 : ℝ) : EReal)) :
    AllRealNe0 (maximumf x y) := fun i => by
  show ∃ c : ℝ, c ≠ 0 ∧ max (x i) (y i) = c
  rw [hy i]
  exact real_max_one (hx i)

def refLayer (h : FVec Ideal S100000x128 .f32) (gidx sidx didx : IVec S1600000x1 32)
    (Wl Wr : FVec Ideal S128x128 .f32) (b : FVec Ideal S128 .f32) : FVec Ideal S100000x128 .f32 :=
  maximumf
    (addf
      (addf
        (Host.dotGeneral dot_S100000x128_S128x128_S100000x128_1_0_0_1_n_n none
          (Host.divf
            (Host.scatterAdd scatter_S100000x128_S1600000x1_S1600000x128_1_0_0_1
              (broadcastInDim S100000x128 ![] bcast_S_S100000x128 (constant (F := Ideal) S_ .f32 0x00000000#32))
              sidx
              (Host.gather gather_S100000x128_S1600000x1_S1600000x128_1_0_n_n_0_1_1128 h gidx))
            (broadcastInDim S100000x128 ![0, 1] bcast_S100000x1_S100000x128_0_1
              (maximumf
                (Host.scatterAdd scatter_S100000x1_S1600000x1_S1600000x1_1_0_0_1
                  (broadcastInDim S100000x1 ![] bcast_S_S100000x1 (constant (F := Ideal) S_ .f32 0x00000000#32))
                  didx
                  (broadcastInDim S1600000x1 ![] bcast_S_S1600000x1 (constant (F := Ideal) S_ .f32 0x3F800000#32)))
                (broadcastInDim S100000x1 ![] bcast_S_S100000x1 (constant (F := Ideal) S_ .f32 0x3F800000#32)))))
          (transpose S128x128 [1, 0] Wl transposes_S128x128_S128x128_1_0))
        (Host.dotGeneral dot_S100000x128_S128x128_S100000x128_1_0_0_1_n_n none h
          (transpose S128x128 [1, 0] Wr transposes_S128x128_S128x128_1_0)))
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

-- The reals are closed under each operation of the layer; the mean's divisor is a real no smaller than 1.
theorem refLayer_allReal (h : FVec Ideal S100000x128 .f32) (gidx sidx didx : IVec S1600000x1 32)
    (Wl Wr : FVec Ideal S128x128 .f32) (b : FVec Ideal S128 .f32)
    (hh : AllReal h) (hWl : AllReal Wl) (hWr : AllReal Wr) (hb : AllReal b) :
    AllReal (refLayer h gidx sidx didx Wl Wr b) := by
  unfold refLayer
  refine allReal_maximumf _ _ (allReal_addf _ _ (allReal_addf _ _
      (allReal_dotGeneral _ _ _ _
        (allReal_divf _ _
          (allReal_scatterAdd _ _ _ _ (allReal_broadcastInDim _ _ _ allReal_zero) (allReal_gather _ _ _ hh))
          (allRealNe0_broadcastInDim _ _ _
            (allRealNe0_maximumf_one _ _
              (allReal_scatterAdd _ _ _ _ (allReal_broadcastInDim _ _ _ allReal_zero) (allReal_broadcastInDim _ _ _ allReal_one))
              (fun _ => Ideal.ofBits_one_f32))))
        (allReal_transpose _ _ _ hWl))
      (allReal_dotGeneral _ _ _ _ hh (allReal_transpose _ _ _ hWr)))
    (allReal_broadcastInDim _ _ _ (allReal_broadcastInDim _ _ _ hb)))
    (allReal_broadcastInDim _ _ _ allReal_zero)

end Finite

open Finite Cert.ReferenceIdeal.Read

theorem h1_finite (x0 : (⟨S100000x128, .f32⟩ : BufTy).Contents (Elt Ideal)) (x1 : (⟨S2x1600000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal))
    (h0 : ∀ i, ∃ a : ℝ, x0 i = a) (h3 : ∀ i, ∃ a : ℝ, x3 i = a) (h4 : ∀ i, ∃ a : ℝ, x4 i = a) (h5 : ∀ i, ∃ a : ℝ, x5 i = a)
    (h6 : ∀ i, ∃ a : ℝ, x6 i = a) (h7 : ∀ i, ∃ a : ℝ, x7 i = a) (h8 : ∀ i, ∃ a : ℝ, x8 i = a) :
    ∀ i, ∃ a : ℝ, val_main_v57 (F := Ideal) x0 x1 x3 x4 x5 x6 x7 x8 i = (a : EReal) :=
  refLayer_allReal _ (val_main_v36 (F := Ideal) x1) (val_main_v39 (F := Ideal) x1) (val_main_v43 (F := Ideal) x1) x6 x7 x8
    (refLayer_allReal x0 (val_main_v9 (F := Ideal) x1) (val_main_v12 (F := Ideal) x1) (val_main_v16 (F := Ideal) x1) x3 x4 x5
      h0 h3 h4 h5) h6 h7 h8

end Cert.KernelIdeal.Val
end
-- ==== Proof.Val.Dense.lean ====
import proofs.«415824_j75625784148324_2_alg».proof.Proof.KI.Region0
import proofs.«415824_j75625784148324_2_alg».proof.Proof.KI.Region1
import proofs.«415824_j75625784148324_2_alg».proof.Proof.KI.Region2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

-- A rows-by-columns product into the zero accumulator, at row p and column o, is the sum over the contracted axis.
theorem matmul_plain_apply {M K N : ℕ} (d : DotDims ⟨2, ![M, K]⟩ ⟨2, ![K, N]⟩ ⟨2, ![M, N]⟩) (hd : d = DotDims.plain M K N)
    (a : FVec Ideal ⟨2, ![M, K]⟩ .f32) (w : FVec Ideal ⟨2, ![K, N]⟩ .f32) (p : Fin M) (o : Fin N) :
    matmul d none a w (constant (F := Ideal) ⟨2, ![M, N]⟩ .f32 0x00000000#32) (ix2 p o) = ∑ k : Fin K, a (ix2 p k) * w (ix2 k o) := by
  subst hd
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  refine congrArg₂ _ (congrArg a (funext fun i => Fin.ext ?_)) (congrArg w (funext fun i => Fin.ext ?_))
  · match i with
    | ⟨0, _⟩ => rfl
    | ⟨1, _⟩ => exact hk
  · match i with
    | ⟨0, _⟩ => exact hk
    | ⟨1, _⟩ => rfl

-- An element of a block sits, on each axis, at the block index times the block size plus its own coordinate.
theorem block_emb_ix2 {n0 n1 m0 m1 : ℕ} {x : Fin 2 → ℕ}
    (hx : ∀ a, (x a + 1) * (![m0, m1] : Fin 2 → ℕ) a ≤ (⟨2, ![n0, n1]⟩ : Shape).size a)
    (a : Fin m0) (b : Fin m1) (a' : Fin n0) (b' : Fin n1) (h0 : x 0 * m0 + a.val = a'.val) (h1 : x 1 * m1 + b.val = b'.val) :
    (Rect.block (s := ⟨2, ![n0, n1]⟩) ![m0, m1] x hx).emb (ix2 a b) = ix2 a' b' :=
  funext fun i => Fin.ext (match i with
    | ⟨0, _⟩ => (show x 0 * m0 + 1 * a.val = a'.val by omega)
    | ⟨1, _⟩ => (show x 1 * m1 + 1 * b.val = b'.val by omega))

-- Row r lies in the block of 10000 rows whose block index is r / 10000.
theorem mem_row_block {m : ℕ} (i : (⟨2, ![100000, m]⟩ : Shape).Idx) {x : Fin 2 → ℕ}
    (hx : ∀ a, (x a + 1) * (![10000, m] : Fin 2 → ℕ) a ≤ (⟨2, ![100000, m]⟩ : Shape).size a)
    (h0 : x 0 = (i 0).val / 10000) (h1 : x 1 = 0) : i ∈ (Rect.block ![10000, m] x hx).set := by
  have hi0 : (i 0).val < 100000 := (i 0).isLt
  have hi1 : (i 1).val < m := (i 1).isLt
  refine Rect.mem_set_unit.mpr fun a => ?_
  match a with
  | ⟨0, _⟩ => show x 0 * 10000 ≤ (i 0).val ∧ (i 0).val < x 0 * 10000 + 10000; omega
  | ⟨1, _⟩ => show x 1 * m ≤ (i 1).val ∧ (i 1).val < x 1 * m + m; rw [h1]; omega

theorem dense_hz : (![0, 0] : Fin 2 → Nat) = fun _ => 0 := funext fun a => by fin_cases a <;> rfl

def denseG (A0 A1 : S100000x128.Idx → EReal) (W2 W3 : S128x128.Idx → EReal) (B : S1x128.Idx → EReal) : S100000x128.Idx → EReal :=
  fun i => max ((∑ k : Fin 128, A0 (ix2 (i 0) k) * W2 (ix2 k (i 1))) + (∑ k : Fin 128, A1 (ix2 (i 0) k) * W3 (ix2 k (i 1))) + B (ix2 0 (i 1))) 0

theorem denseG_apply (A0 A1 : S100000x128.Idx → EReal) (W2 W3 : S128x128.Idx → EReal) (B : S1x128.Idx → EReal) (r : Fin 100000) (o : Fin 128) :
    denseG A0 A1 W2 W3 B (ix2 r o)
      = max ((∑ k : Fin 128, A0 (ix2 r k) * W2 (ix2 k o)) + (∑ k : Fin 128, A1 (ix2 r k) * W3 (ix2 k o)) + B (ix2 0 o)) 0 := rfl

def projG (A0 : S100000x128.Idx → EReal) (W : S128x64.Idx → EReal) : S100000x64.Idx → EReal :=
  fun i => ∑ k : Fin 128, A0 (ix2 (i 0) k) * W (ix2 k (i 1))

theorem projG_apply (A0 : S100000x128.Idx → EReal) (W : S128x64.Idx → EReal) (r : Fin 100000) (o : Fin 64) :
    projG A0 W (ix2 r o) = ∑ k : Fin 128, A0 (ix2 r k) * W (ix2 k o) := rfl

-- The layer on row blocks that sit where the output block does, against whole weights and bias, is the output block of the layer of the arrays.
theorem dense_block {pay : Vec Ideal S10000x128 .f32 → Vec Ideal S128x128 .f32 → Vec Ideal S10000x128 .f32 → Vec Ideal S128x128 .f32 → Vec Ideal S1x128 .f32 → FVec Ideal S10000x128 .f32}
    (hpay : ∀ x0 w2 x1 w3 b (p : Fin 10000) (o : Fin 128), pay x0 w2 x1 w3 b (ix2 p o)
      = max ((∑ k : Fin 128, (x0 (ix2 p k) : EReal) * w2 (ix2 k o)) + (∑ k : Fin 128, (x1 (ix2 p k) : EReal) * w3 (ix2 k o)) + b (ix2 0 o)) 0)
    (A0 A1 : S100000x128.Idx → EReal) (W2 W3 : S128x128.Idx → EReal) (B : S1x128.Idx → EReal) {n : ℕ} {x5 x0 x1 x2 x3 x4 : Fin 2 → ℕ}
    (h : x5 0 = n ∧ x5 1 = 0 ∧ x0 0 = n ∧ x0 1 = 0 ∧ x1 0 = n ∧ x1 1 = 0 ∧ x2 0 = 0 ∧ x2 1 = 0 ∧ x3 0 = 0 ∧ x3 1 = 0 ∧ x4 0 = 0 ∧ x4 1 = 0)
    (i5 : ∀ a, (x5 a + 1) * S10000x128.size a ≤ S100000x128.size a) (i0 : ∀ a, (x0 a + 1) * S10000x128.size a ≤ S100000x128.size a)
    (i1 : ∀ a, (x1 a + 1) * S10000x128.size a ≤ S100000x128.size a) (i2 : ∀ a, (x2 a + 1) * S128x128.size a ≤ S128x128.size a)
    (i3 : ∀ a, (x3 a + 1) * S128x128.size a ≤ S128x128.size a) (i4 : ∀ a, (x4 a + 1) * S1x128.size a ≤ S1x128.size a) :
    pay (fun y => A0 ((Rect.block (s := S100000x128) S10000x128.size x0 i0).emb y)) (fun y => W2 ((Rect.block (s := S128x128) S128x128.size x2 i2).emb y))
        (fun y => A1 ((Rect.block (s := S100000x128) S10000x128.size x1 i1).emb y)) (fun y => W3 ((Rect.block (s := S128x128) S128x128.size x3 i3).emb y))
        (fun y => B ((Rect.block (s := S1x128) S1x128.size x4 i4).emb y))
      = fun y => denseG A0 A1 W2 W3 B ((Rect.block (s := S100000x128) S10000x128.size x5 i5).emb y) := by
  obtain ⟨a50, a51, a00, a01, a10, a11, a20, a21, a30, a31, a40, a41⟩ := h
  funext y
  obtain ⟨p, o, rfl⟩ : ∃ (p : Fin 10000) (o : Fin 128), y = ix2 p o := ⟨y 0, y 1, eq_ix2 y⟩
  obtain ⟨q, hq⟩ : ∃ q : Fin 100000, n * 10000 + p.val = q.val :=
    ⟨(Rect.block (s := S100000x128) S10000x128.size x5 i5).emb (ix2 p o) 0, by show _ = x5 0 * 10000 + 1 * p.val; omega⟩
  have e5 : (Rect.block (s := S100000x128) S10000x128.size x5 i5).emb (ix2 p o) = ix2 q o := block_emb_ix2 i5 p o q o (by rw [a50]; exact hq) (by omega)
  have e0 : ∀ k : Fin 128, (Rect.block (s := S100000x128) S10000x128.size x0 i0).emb (ix2 p k) = ix2 q k := fun k => block_emb_ix2 i0 p k q k (by rw [a00]; exact hq) (by omega)
  have e1 : ∀ k : Fin 128, (Rect.block (s := S100000x128) S10000x128.size x1 i1).emb (ix2 p k) = ix2 q k := fun k => block_emb_ix2 i1 p k q k (by rw [a10]; exact hq) (by omega)
  have e2 : ∀ k : Fin 128, (Rect.block (s := S128x128) S128x128.size x2 i2).emb (ix2 k o) = ix2 k o := fun k => block_emb_ix2 i2 k o k o (by omega) (by omega)
  have e3 : ∀ k : Fin 128, (Rect.block (s := S128x128) S128x128.size x3 i3).emb (ix2 k o) = ix2 k o := fun k => block_emb_ix2 i3 k o k o (by omega) (by omega)
  have e4 : (Rect.block (s := S1x128) S1x128.size x4 i4).emb (ix2 0 o) = ix2 0 o := block_emb_ix2 i4 0 o 0 o (by omega) (by omega)
  rw [hpay, e5]
  simp only [e0, e1, e2, e3, e4] <;> rfl

-- The projection on a row block against the whole weight is the output block of the projection of the arrays.
theorem proj_block {pay : Vec Ideal S10000x128 .f32 → Vec Ideal S128x64 .f32 → FVec Ideal S10000x64 .f32}
    (hpay : ∀ x0 w (p : Fin 10000) (o : Fin 64), pay x0 w (ix2 p o) = ∑ k : Fin 128, (x0 (ix2 p k) : EReal) * w (ix2 k o))
    (A0 : S100000x128.Idx → EReal) (W : S128x64.Idx → EReal) {n : ℕ} {x2 x0 x1 : Fin 2 → ℕ}
    (h : x2 0 = n ∧ x2 1 = 0 ∧ x0 0 = n ∧ x0 1 = 0 ∧ x1 0 = 0 ∧ x1 1 = 0)
    (i2 : ∀ a, (x2 a + 1) * S10000x64.size a ≤ S100000x64.size a) (i0 : ∀ a, (x0 a + 1) * S10000x128.size a ≤ S100000x128.size a)
    (i1 : ∀ a, (x1 a + 1) * S128x64.size a ≤ S128x64.size a) :
    pay (fun y => A0 ((Rect.block (s := S100000x128) S10000x128.size x0 i0).emb y)) (fun y => W ((Rect.block (s := S128x64) S128x64.size x1 i1).emb y))
      = fun y => projG A0 W ((Rect.block (s := S100000x64) S10000x64.size x2 i2).emb y) := by
  obtain ⟨a20, a21, a00, a01, a10, a11⟩ := h
  funext y
  obtain ⟨p, o, rfl⟩ : ∃ (p : Fin 10000) (o : Fin 64), y = ix2 p o := ⟨y 0, y 1, eq_ix2 y⟩
  obtain ⟨q, hq⟩ : ∃ q : Fin 100000, n * 10000 + p.val = q.val :=
    ⟨(Rect.block (s := S100000x64) S10000x64.size x2 i2).emb (ix2 p o) 0, by show _ = x2 0 * 10000 + 1 * p.val; omega⟩
  have e2 : (Rect.block (s := S100000x64) S10000x64.size x2 i2).emb (ix2 p o) = ix2 q o := block_emb_ix2 i2 p o q o (by rw [a20]; exact hq) (by omega)
  have e0 : ∀ k : Fin 128, (Rect.block (s := S100000x128) S10000x128.size x0 i0).emb (ix2 p k) = ix2 q k := fun k => block_emb_ix2 i0 p k q k (by rw [a00]; exact hq) (by omega)
  have e1 : ∀ k : Fin 128, (Rect.block (s := S128x64) S128x64.size x1 i1).emb (ix2 k o) = ix2 k o := fun k => block_emb_ix2 i1 k o k o (by omega) (by omega)
  rw [hpay, e2]
  simp only [e0, e1] <;> rfl

variable (V : (c : Dev nD) → (b : Ref sig .tc) → Buf (Elt Ideal) ((c : Thread nD τ).loc b))

theorem dense_pay0_apply (x0 : Vec Ideal S10000x128 .f32) (w2 : Vec Ideal S128x128 .f32) (x1 : Vec Ideal S10000x128 .f32) (w3 : Vec Ideal S128x128 .f32) (b : Vec Ideal S1x128 .f32) (p : Fin 10000) (o : Fin 128) :
    k0_pay1 (F := Ideal) x0 w2 x1 w3 b (ix2 p o)
      = max ((∑ k : Fin 128, (x0 (ix2 p k) : EReal) * w2 (ix2 k o)) + (∑ k : Fin 128, (x1 (ix2 p k) : EReal) * w3 (ix2 k o)) + b (ix2 0 o)) 0 := by
  unfold k0_pay1
  simp only [shapeCast_self]
  rw [maximumf_apply, addf_apply, addf_apply, matmul_plain_apply dot_S10000x128_S128x128_S10000x128_1_0_0_1_n_n rfl,
    matmul_plain_apply dot_S10000x128_S128x128_S10000x128_1_0_0_1_n_n rfl, broadcastTo_1b_ab_apply, broadcast_apply]
  show max _ (Ideal.ofBits .f32 0x00000000#32) = _
  rw [Ideal.ofBits_zero_f32]

-- Region 1's payload is region 0's with one more reshape to the same shape.
theorem k1_pay1_eq : @k1_pay1 Ideal _ = k0_pay1 := by
  funext x0 w2 x1 w3 b
  unfold k1_pay1 k0_pay1
  simp only [shapeCast_self]

theorem idx_facts0 : ∀ t : Fin cfg0.N, win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem flushed0_eq (c : Dev nD) (t : Fin cfg0.N) :
    (dat0 V c).flushed 5 t = ((cfg0.win 5).blk t).view.read (Elt Ideal) (denseG (V c (Pipeline.arrRef spec0 0)) (V c (Pipeline.arrRef spec0 1)) (V c (Pipeline.arrRef spec0 2)) (V c (Pipeline.arrRef spec0 3)) (V c (Pipeline.arrRef spec0 4))) := by
  show (cfg0.win 5).cut (grid0.coords t) ((dat0 V c).after 5 t) = _
  rw [after0_5]
  unfold out0_5
  rw [View.canon_unit_zero dense_hz]
  simp only [View.ld_unit_zero (S := S10000x128) dense_hz, View.ld_unit_zero (S := S128x128) dense_hz, View.ld_unit_zero (S := S1x128) dense_hz]
  exact dense_block dense_pay0_apply (V c (Pipeline.arrRef spec0 0)) (V c (Pipeline.arrRef spec0 1)) (V c (Pipeline.arrRef spec0 2)) (V c (Pipeline.arrRef spec0 3)) (V c (Pipeline.arrRef spec0 4)) (idx_facts0 t)
    (hinb0_5 (grid0.coords t)) (hinb0_0 (grid0.coords t)) (hinb0_1 (grid0.coords t)) (hinb0_2 (grid0.coords t)) (hinb0_3 (grid0.coords t)) (hinb0_4 (grid0.coords t))

theorem cover0 (i : S100000x128.Idx) : ∃ t : Fin cfg0.N, (cfg0.win 5).flush t = true ∧ i ∈ ((cfg0.win 5).blk t).view.set := by
  have hi : (i 0).val < 100000 := (i 0).isLt
  have hlt : (i 0).val / 10000 < cfg0.N := by have := N_0; show _ < grid0.N; omega
  obtain ⟨e50, e51, -⟩ := idx_facts0 ⟨_, hlt⟩
  refine ⟨⟨_, hlt⟩, flush0_5 _, ?_⟩
  show i ∈ ((View.whole main_call0_v34).slice (win0_5.rect ⟨(i 0).val / 10000, hlt⟩)).set
  rw [View.set_slice_whole]
  exact mem_row_block i (hinb0_5 _) e50 e51

theorem final0 (c : Dev nD) : (dat0 V c).arrAt 5 cfg0.N = denseG (V c (Pipeline.arrRef spec0 0)) (V c (Pipeline.arrRef spec0 1)) (V c (Pipeline.arrRef spec0 2)) (V c (Pipeline.arrRef spec0 3)) (V c (Pipeline.arrRef spec0 4)) :=
  (dat0 V c).arrAt_eq_of_cover 5 _ (fun t _ => flushed0_eq V c t) cover0

theorem idx_facts1 : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

theorem flushed1_eq (c : Dev nD) (t : Fin cfg1.N) :
    (dat1 V c).flushed 5 t = ((cfg1.win 5).blk t).view.read (Elt Ideal) (denseG (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [k1_pay1_eq]
  rw [View.canon_unit_zero dense_hz]
  simp only [View.ld_unit_zero (S := S10000x128) dense_hz, View.ld_unit_zero (S := S128x128) dense_hz, View.ld_unit_zero (S := S1x128) dense_hz]
  exact dense_block dense_pay0_apply (V c (Pipeline.arrRef spec1 0)) (V c (Pipeline.arrRef spec1 1)) (V c (Pipeline.arrRef spec1 2)) (V c (Pipeline.arrRef spec1 3)) (V c (Pipeline.arrRef spec1 4)) (idx_facts1 t)
    (hinb1_5 (grid1.coords t)) (hinb1_0 (grid1.coords t)) (hinb1_1 (grid1.coords t)) (hinb1_2 (grid1.coords t)) (hinb1_3 (grid1.coords t)) (hinb1_4 (grid1.coords t))

theorem cover1 (i : S100000x128.Idx) : ∃ t : Fin cfg1.N, (cfg1.win 5).flush t = true ∧ i ∈ ((cfg1.win 5).blk t).view.set := by
  have hi : (i 0).val < 100000 := (i 0).isLt
  have hlt : (i 0).val / 10000 < cfg1.N := by have := N_1; show _ < grid1.N; omega
  obtain ⟨e50, e51, -⟩ := idx_facts1 ⟨_, hlt⟩
  refine ⟨⟨_, hlt⟩, flush1_5 _, ?_⟩
  show i ∈ ((View.whole main_call0_v48).slice (win1_5.rect ⟨(i 0).val / 10000, hlt⟩)).set
  rw [View.set_slice_whole]
  exact mem_row_block i (hinb1_5 _) e50 e51

theorem final1 (c : Dev nD) : (dat1 V c).arrAt 5 cfg1.N = denseG (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 5 _ (fun t _ => flushed1_eq V c t) cover1

theorem proj_pay2_apply (x0 : Vec Ideal S10000x128 .f32) (w : Vec Ideal S128x64 .f32) (p : Fin 10000) (o : Fin 64) :
    k2_pay1 (F := Ideal) x0 w (ix2 p o) = ∑ k : Fin 128, (x0 (ix2 p k) : EReal) * w (ix2 k o) := by
  unfold k2_pay1
  simp only [shapeCast_self]
  rw [matmul_plain_apply dot_S10000x128_S128x64_S10000x64_1_0_0_1_n_n rfl]

theorem idx_facts2 : ∀ t : Fin cfg2.N, win2_2.index t (0 : Fin 2) = t.val ∧ win2_2.index t (1 : Fin 2) = 0
    ∧ win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, _)

theorem flushed2_eq (c : Dev nD) (t : Fin cfg2.N) :
    (dat2 V c).flushed 2 t = ((cfg2.win 2).blk t).view.read (Elt Ideal) (projG (V c (Pipeline.arrRef spec2 0)) (V c (Pipeline.arrRef spec2 1))) := by
  show (cfg2.win 2).cut (grid2.coords t) ((dat2 V c).after 2 t) = _
  rw [after2_2]
  unfold out2_2
  rw [View.canon_unit_zero dense_hz]
  simp only [View.ld_unit_zero (S := S10000x128) dense_hz, View.ld_unit_zero (S := S128x64) dense_hz]
  exact proj_block proj_pay2_apply (V c (Pipeline.arrRef spec2 0)) (V c (Pipeline.arrRef spec2 1)) (idx_facts2 t)
    (hinb2_2 (grid2.coords t)) (hinb2_0 (grid2.coords t)) (hinb2_1 (grid2.coords t))

theorem cover2 (i : S100000x64.Idx) : ∃ t : Fin cfg2.N, (cfg2.win 2).flush t = true ∧ i ∈ ((cfg2.win 2).blk t).view.set := by
  have hi : (i 0).val < 100000 := (i 0).isLt
  have hlt : (i 0).val / 10000 < cfg2.N := by have := N_2; show _ < grid2.N; omega
  obtain ⟨e20, e21, -⟩ := idx_facts2 ⟨_, hlt⟩
  refine ⟨⟨_, hlt⟩, flush2_2 _, ?_⟩
  show i ∈ ((View.whole main_call0_v49).slice (win2_2.rect ⟨(i 0).val / 10000, hlt⟩)).set
  rw [View.set_slice_whole]
  exact mem_row_block i (hinb2_2 _) e20 e21

theorem final2 (c : Dev nD) : (dat2 V c).arrAt 2 cfg2.N = projG (V c (Pipeline.arrRef spec2 0)) (V c (Pipeline.arrRef spec2 1)) :=
  (dat2 V c).arrAt_eq_of_cover 2 _ (fun t _ => flushed2_eq V c t) cover2

end Cert.KernelIdeal.Val

end
-- ==== Proof.Val.Layers01.lean ====
import proofs.«415824_j75625784148324_2_alg».proof.Proof.KI.ChainA
import proofs.«415824_j75625784148324_2_alg».proof.Proof.Val.Dense
import proofs.«415824_j75625784148324_2_alg».proof.Proof.Gen.ReferenceIdeal.Read
import Idealize.ShloMosaic.Lib.IdealHost
import Idealize.ShloMosaic.Lib.ValueLayout
import Idealize.ShloMosaic.Lib.StableHlo.Run

set_option maxRecDepth 16384

noncomputable section

namespace Cert.KernelIdeal.Val

namespace Layers01

open Cert.KernelIdeal Cert.KernelIdeal.Gen Cert.KernelIdeal.Hand
open Cert.ReferenceIdeal.Read
open Idealize.ShloMosaic Idealize.ShloMosaic.TcCoe Idealize.ShloMosaic.StableHlo Idealize.SL.Sem
open Idealize.ShloMosaic.ValueIdx
open scoped BigOperators

section Stretch0

theorem ofBuf_toBuf {T : BufTy} (x : TRef sig T) (v : T.Contents (Elt Ideal)) : x.ofBuf (x.toBuf v) = v := by
  obtain ⟨ref, ty_eq, h1, h2⟩ := x; subst ty_eq; rfl

variable (m : (ℓ : Loc nD τ sig) → Buf (Elt Ideal) ℓ) (c : Dev nD)

theorem W1_arg0 (x0 : Vec Ideal S100000x128 .f32) (hx0 : m ((c.tc : Thread nD τ).loc main_arg0) = x0) :
    @Eq (Vec Ideal S100000x128 .f32) (W1 (F := Ideal) m c (Proc.devRef .tc main_arg0)) x0 := by
  show StableHlo.after hostOps0 _ (Proc.devRef .tc main_arg0) = _
  after_results <;> exact hx0

theorem W1_arg8 (x8 : Vec Ideal S128 .f32) (hx8 : m ((c.tc : Thread nD τ).loc main_arg8) = x8) :
    @Eq (Vec Ideal S128 .f32) (W1 (F := Ideal) m c (Proc.devRef .tc main_arg8)) x8 := by
  show StableHlo.after hostOps0 _ (Proc.devRef .tc main_arg8) = _
  after_results <;> exact hx8

theorem W1_v1 (x1 : Vec Ideal S2x1600000 .i32) (hx1 : m ((c.tc : Thread nD τ).loc main_arg1) = x1) :
    @Eq (Vec Ideal S1600000 .i32) (W1 (F := Ideal) m c (Proc.devRef .tc main_call0_v1)) (val_main_v1 (F := Ideal) x1) := by
  subst hx1
  show StableHlo.after hostOps0 _ (Proc.devRef .tc main_call0_v1) = _
  after_results <;> rfl

theorem W1_v3 (x1 : Vec Ideal S2x1600000 .i32) (hx1 : m ((c.tc : Thread nD τ).loc main_arg1) = x1) :
    @Eq (Vec Ideal S1600000 .i32) (W1 (F := Ideal) m c (Proc.devRef .tc main_call0_v3)) (val_main_v3 (F := Ideal) x1) := by
  subst hx1
  show StableHlo.after hostOps0 _ (Proc.devRef .tc main_call0_v3) = _
  after_results <;> rfl

def invDeg (x1 : Vec Ideal S2x1600000 .i32) : FVec Ideal S100000x1 .f32 :=
  Host.divf (broadcastInDim S100000x1 ![] bcast_S_S100000x1 (constant (F := Ideal) S_ .f32 0x3F800000#32)) (val_main_v19 (F := Ideal) x1)

def aggOf (M : FVec Ideal S100000x128 .f32) (x1 : Vec Ideal S2x1600000 .i32) : FVec Ideal S100000x128 .f32 :=
  mulf M (broadcastInDim S100000x128 ![0, 1] bcast_S100000x1_S100000x128_0_1 (invDeg x1))

theorem W1_v11 (x1 : Vec Ideal S2x1600000 .i32)
    (hx1 : m ((c.tc : Thread nD τ).loc main_arg1) = x1) :
    @Eq (Vec Ideal S100000x1 .f32) (W1 (F := Ideal) m c (Proc.devRef .tc main_call0_v11)) (invDeg x1) := by
  have e0 : (TRef.of main_arg1 : TRef sig ⟨S2x1600000, .i32⟩).ofBuf (W0 m c (Proc.devRef .tc main_arg1)) = x1 := hx1
  show StableHlo.after hostOps0 _ (Proc.devRef .tc main_call0_v11) = _
  after_results
  refine (cast_eq _ _).trans ?_
  simp only [ofBuf_toBuf, e0] <;> rfl

set_option maxHeartbeats 1000000 in

theorem W1_v32 (x0 : Vec Ideal S100000x128 .f32) (x1 : Vec Ideal S2x1600000 .i32)
    (hx0 : m ((c.tc : Thread nD τ).loc main_arg0) = x0) (hx1 : m ((c.tc : Thread nD τ).loc main_arg1) = x1) :
    @Eq (Vec Ideal S100000x128 .f32) (W1 (F := Ideal) m c (Proc.devRef .tc main_call0_v32)) (aggOf (val_main_v13 (F := Ideal) x0 x1) x1) := by
  have e0 : (TRef.of main_arg0 : TRef sig ⟨S100000x128, .f32⟩).ofBuf (W0 m c (Proc.devRef .tc main_arg0)) = x0 := hx0
  have e1 : (TRef.of main_arg1 : TRef sig ⟨S2x1600000, .i32⟩).ofBuf (W0 m c (Proc.devRef .tc main_arg1)) = x1 := hx1
  show StableHlo.after hostOps0 _ (Proc.devRef .tc main_call0_v32) = _
  after_results_simp
  refine (cast_eq _ _).trans ?_
  simp only [ofBuf_toBuf, e0, e1] <;> rfl

theorem W1_v12 (x3 : Vec Ideal S128x128 .f32)
    (hx3 : m ((c.tc : Thread nD τ).loc main_arg3) = x3) :
    @Eq (Vec Ideal S128x128 .f32) (W1 (F := Ideal) m c (Proc.devRef .tc main_call0_v12)) (transpose S128x128 [1, 0] x3 transposes_S128x128_S128x128_1_0) := by
  have e0 : (TRef.of main_arg3 : TRef sig ⟨S128x128, .f32⟩).ofBuf (W0 m c (Proc.devRef .tc main_arg3)) = x3 := hx3
  show StableHlo.after hostOps0 _ (Proc.devRef .tc main_call0_v12) = _
  after_results
  refine (cast_eq _ _).trans ?_
  simp only [ofBuf_toBuf, e0] <;> rfl

theorem W1_v13 (x4 : Vec Ideal S128x128 .f32)
    (hx4 : m ((c.tc : Thread nD τ).loc main_arg4) = x4) :
    @Eq (Vec Ideal S128x128 .f32) (W1 (F := Ideal) m c (Proc.devRef .tc main_call0_v13)) (transpose S128x128 [1, 0] x4 transposes_S128x128_S128x128_1_0) := by
  have e0 : (TRef.of main_arg4 : TRef sig ⟨S128x128, .f32⟩).ofBuf (W0 m c (Proc.devRef .tc main_arg4)) = x4 := hx4
  show StableHlo.after hostOps0 _ (Proc.devRef .tc main_call0_v13) = _
  after_results
  refine (cast_eq _ _).trans ?_
  simp only [ofBuf_toBuf, e0] <;> rfl

theorem W1_v14 (x6 : Vec Ideal S128x128 .f32)
    (hx6 : m ((c.tc : Thread nD τ).loc main_arg6) = x6) :
    @Eq (Vec Ideal S128x128 .f32) (W1 (F := Ideal) m c (Proc.devRef .tc main_call0_v14)) (transpose S128x128 [1, 0] x6 transposes_S128x128_S128x128_1_0) := by
  have e0 : (TRef.of main_arg6 : TRef sig ⟨S128x128, .f32⟩).ofBuf (W0 m c (Proc.devRef .tc main_arg6)) = x6 := hx6
  show StableHlo.after hostOps0 _ (Proc.devRef .tc main_call0_v14) = _
  after_results
  refine (cast_eq _ _).trans ?_
  simp only [ofBuf_toBuf, e0] <;> rfl

theorem W1_v15 (x7 : Vec Ideal S128x128 .f32)
    (hx7 : m ((c.tc : Thread nD τ).loc main_arg7) = x7) :
    @Eq (Vec Ideal S128x128 .f32) (W1 (F := Ideal) m c (Proc.devRef .tc main_call0_v15)) (transpose S128x128 [1, 0] x7 transposes_S128x128_S128x128_1_0) := by
  have e0 : (TRef.of main_arg7 : TRef sig ⟨S128x128, .f32⟩).ofBuf (W0 m c (Proc.devRef .tc main_arg7)) = x7 := hx7
  show StableHlo.after hostOps0 _ (Proc.devRef .tc main_call0_v15) = _
  after_results
  refine (cast_eq _ _).trans ?_
  simp only [ofBuf_toBuf, e0] <;> rfl

theorem W1_v33 (x5 : Vec Ideal S128 .f32) (hx5 : m ((c.tc : Thread nD τ).loc main_arg5) = x5) :
    @Eq (Vec Ideal S1x128 .f32) (W1 (F := Ideal) m c (Proc.devRef .tc main_call0_v33)) (shapeCast S1x128 x5 shapeCasts_S128_S1x128) := by
  subst hx5
  show StableHlo.after hostOps0 _ (Proc.devRef .tc main_call0_v33) = _
  after_results <;> rfl

end Stretch0

section Idx

variable (r : Fin 100000) (o k : Fin 128)

theorem lidx_v23_ix : lidx_main_v23 (ix2 r o) k = ix2 r k := funext fun a => match a with | ⟨0, _⟩ => rfl | ⟨1, _⟩ => rfl
theorem ridx_v23_ix : ridx_main_v23 (ix2 r o) k = ix2 k o := funext fun a => match a with | ⟨0, _⟩ => rfl | ⟨1, _⟩ => rfl
theorem lidx_v25_ix : lidx_main_v25 (ix2 r o) k = ix2 r k := funext fun a => match a with | ⟨0, _⟩ => rfl | ⟨1, _⟩ => rfl
theorem ridx_v25_ix : ridx_main_v25 (ix2 r o) k = ix2 k o := funext fun a => match a with | ⟨0, _⟩ => rfl | ⟨1, _⟩ => rfl
theorem idx_v22_ix : idx_main_v22 (ix2 k o) = ix2 o k := funext fun a => match a with | ⟨0, _⟩ => rfl | ⟨1, _⟩ => rfl
theorem idx_v24_ix : idx_main_v24 (ix2 k o) = ix2 o k := funext fun a => match a with | ⟨0, _⟩ => rfl | ⟨1, _⟩ => rfl
theorem idx_v20_ix : idx_main_v20 (ix2 r k) = ix2 r (0 : Fin 1) := funext fun a => match a with | ⟨0, _⟩ => rfl | ⟨1, _⟩ => rfl
theorem idx_v28_ix : idx_main_v28 (ix2 r o) = ix2 (0 : Fin 1) o := funext fun a => match a with | ⟨0, _⟩ => rfl | ⟨1, _⟩ => rfl
theorem idx_v27_ix : idx_main_v27 (ix2 (0 : Fin 1) o) = ix1 o := funext fun a => match a with | ⟨0, _⟩ => rfl

theorem bcast_col_apply (v : Vec Ideal S100000x1 .f32) :
    broadcastInDim S100000x128 ![0, 1] bcast_S100000x1_S100000x128_0_1 v (ix2 r k) = v (ix2 r (0 : Fin 1)) :=
  broadcastInDim_apply _ bcast_S100000x1_S100000x128_0_1 v (ix2 r k) (ix2 r (0 : Fin 1)) (fun a => match a with
    | ⟨0, _⟩ => by show r.val = if (100000 : Nat) = 1 then 0 else r.val; rw [if_neg (by decide)]
    | ⟨1, _⟩ => by show 0 = if (1 : Nat) = 1 then 0 else k.val; rw [if_pos rfl])

theorem transpose_sq_apply (W : Vec Ideal S128x128 .f32) :
    transpose S128x128 [1, 0] W transposes_S128x128_S128x128_1_0 (ix2 k o) = W (ix2 o k) :=
  transpose_ix2_apply (a := 128) (b := 128) W transposes_S128x128_S128x128_1_0 k o

theorem max_one_ne_zero (a : EReal) : max a 1 ≠ 0 := by
  have h1 : (1 : EReal) ≤ max a 1 := le_max_right _ _
  intro h0
  rw [h0] at h1
  exact absurd h1 (by norm_num)

theorem invDeg_apply (x1 : Vec Ideal S2x1600000 .i32) (j : S100000x1.Idx) :
    invDeg x1 j = Ideal.div 1 (max (val_main_v17 (F := Ideal) x1 j) 1) := by
  unfold invDeg
  rw [hostDivf_apply, broadcastInDim_scalar_apply, constant_apply, Ideal.ofBits_one_f32, val_main_v19_apply,
    val_main_v18_apply, val_main_cst_3_apply, Ideal.maximumf_def, Ideal.ofBits_def, Ideal.ofBits_one_f32]

theorem aggOf_apply (M : FVec Ideal S100000x128 .f32) (x1 : Vec Ideal S2x1600000 .i32) :
    aggOf M x1 (ix2 r k) = M (ix2 r k) * Ideal.div 1 (max (val_main_v17 (F := Ideal) x1 (ix2 r (0 : Fin 1))) 1) := by
  unfold aggOf
  rw [mulf_apply, bcast_col_apply, invDeg_apply]

-- x · (1 / d) = x / d when d = max(deg, 1), which is at least 1 and so not 0.
theorem mul_inv_clamped (a d : EReal) : a * Ideal.div 1 (max d 1) = Ideal.div a (max d 1) :=
  Ideal.mul_one_div (max_one_ne_zero d)

end Idx

section Layer

-- One layer at row r, column o: max(Σ_k (M[r,k] / max(deg[r], 1)) · Wl[o,k] + Σ_k h[r,k] · Wr[o,k] + b[o], 0).
def layerAt (M h : S100000x128.Idx → EReal) (dg : S100000x1.Idx → EReal) (Wl Wr : S128x128.Idx → EReal) (b : S128.Idx → EReal)
    (r : Fin 100000) (o : Fin 128) : EReal :=
  max ((∑ k : Fin 128, Ideal.div (M (ix2 r k)) (max (dg (ix2 r (0 : Fin 1))) 1) * Wl (ix2 o k))
    + (∑ k : Fin 128, h (ix2 r k) * Wr (ix2 o k)) + b (ix1 o)) 0

theorem ref_h0_apply (x0 : Vec Ideal S100000x128 .f32) (x1 : Vec Ideal S2x1600000 .i32) (x3 x4 : Vec Ideal S128x128 .f32)
    (x5 : Vec Ideal S128 .f32) (r : Fin 100000) (o : Fin 128) :
    val_main_v30 (F := Ideal) x0 x1 x3 x4 x5 (ix2 r o)
      = layerAt (val_main_v13 (F := Ideal) x0 x1) x0 (val_main_v17 (F := Ideal) x1) x3 x4 x5 r o := by
  have hl : ∀ k : Fin 128, (val_main_v21 (F := Ideal) x0 x1) (lidx_main_v23 (ix2 r o) k) * (val_main_v22 (F := Ideal) x3) (ridx_main_v23 (ix2 r o) k)
      = Ideal.div (val_main_v13 (F := Ideal) x0 x1 (ix2 r k)) (max (val_main_v17 (F := Ideal) x1 (ix2 r (0 : Fin 1))) 1) * x3 (ix2 o k) := fun k => by
    rw [lidx_v23_ix, ridx_v23_ix, val_main_v21_apply, val_main_v20_apply, idx_v20_ix, val_main_v19_apply, val_main_v18_apply,
      val_main_cst_3_apply, val_main_v22_apply, idx_v22_ix, Ideal.hostDivf_def, Ideal.maximumf_def, Ideal.ofBits_def, Ideal.ofBits_one_f32]
  have hr : ∀ k : Fin 128, x0 (lidx_main_v25 (ix2 r o) k) * (val_main_v24 (F := Ideal) x4) (ridx_main_v25 (ix2 r o) k)
      = x0 (ix2 r k) * x4 (ix2 o k) := fun k => by
    rw [lidx_v25_ix, ridx_v25_ix, val_main_v24_apply, idx_v24_ix]
  rw [val_main_v30_apply, val_main_v29_apply, val_main_v26_apply, val_main_v23_apply, val_main_v25_apply, val_main_v28_apply,
    val_main_v27_apply, val_main_call0_v0_apply, val_main_call0_cst_apply, idx_v28_ix, idx_v27_ix]
  simp only [hl, hr]
  rw [Ideal.maximumf_def, Ideal.addf_def, Ideal.addf_def, Ideal.ofBits_def, Ideal.ofBits_zero_f32]
  generalize val_main_v13 (F := Ideal) x0 x1 = M
  generalize val_main_v17 (F := Ideal) x1 = dg
  rfl

end Layer

section Layer0

variable (m : (ℓ : Loc nD τ sig) → Buf (Elt Ideal) ℓ) (c : Dev nD)

theorem W2_v34 :
    @Eq (S100000x128.Idx → EReal) (W2 (F := Ideal) m c (Proc.devRef .tc main_call0_v34))
      (denseG (W1 (F := Ideal) m c (Proc.devRef .tc main_call0_v32)) (W1 (F := Ideal) m c (Proc.devRef .tc main_arg0))
        (W1 (F := Ideal) m c (Proc.devRef .tc main_call0_v12)) (W1 (F := Ideal) m c (Proc.devRef .tc main_call0_v13))
        (W1 (F := Ideal) m c (Proc.devRef .tc main_call0_v33))) :=
  (W2_arr m c 5).trans (final0 (V1 m) c)

theorem denseG_layer (M h : FVec Ideal S100000x128 .f32) (x1 : Vec Ideal S2x1600000 .i32) (Wl Wr : Vec Ideal S128x128 .f32)
    (b : Vec Ideal S128 .f32) (r : Fin 100000) (o : Fin 128) :
    denseG (aggOf M x1) h (transpose S128x128 [1, 0] Wl transposes_S128x128_S128x128_1_0)
        (transpose S128x128 [1, 0] Wr transposes_S128x128_S128x128_1_0) (shapeCast S1x128 b shapeCasts_S128_S1x128) (ix2 r o)
      = layerAt M h (val_main_v17 (F := Ideal) x1) Wl Wr b r o := by
  have hl : ∀ k : Fin 128, aggOf M x1 (ix2 r k) * transpose S128x128 [1, 0] Wl transposes_S128x128_S128x128_1_0 (ix2 k o)
      = Ideal.div (M (ix2 r k)) (max (val_main_v17 (F := Ideal) x1 (ix2 r (0 : Fin 1))) 1) * Wl (ix2 o k) := fun k => by
    rw [aggOf_apply, mul_inv_clamped, transpose_sq_apply]
  have hr : ∀ k : Fin 128, h (ix2 r k) * transpose S128x128 [1, 0] Wr transposes_S128x128_S128x128_1_0 (ix2 k o)
      = h (ix2 r k) * Wr (ix2 o k) := fun k => by
    rw [transpose_sq_apply]
  rw [denseG_apply, Finset.sum_congr rfl (fun k _ => hl k), Finset.sum_congr rfl (fun k _ => hr k), shapeCast_a_1a_apply]
  generalize val_main_v17 (F := Ideal) x1 = dg
  rfl

theorem _root_.Cert.KernelIdeal.Val.h0_eq (x0 : Vec Ideal S100000x128 .f32) (x1 : Vec Ideal S2x1600000 .i32) (x3 x4 : Vec Ideal S128x128 .f32) (x5 : Vec Ideal S128 .f32)
    (hx0 : m ((c.tc : Thread nD τ).loc main_arg0) = x0) (hx1 : m ((c.tc : Thread nD τ).loc main_arg1) = x1)
    (hx3 : m ((c.tc : Thread nD τ).loc main_arg3) = x3) (hx4 : m ((c.tc : Thread nD τ).loc main_arg4) = x4)
    (hx5 : m ((c.tc : Thread nD τ).loc main_arg5) = x5) :
    @Eq (Vec Ideal S100000x128 .f32) (W2 (F := Ideal) m c (Proc.devRef .tc main_call0_v34)) (val_main_v30 (F := Ideal) x0 x1 x3 x4 x5) := by
  funext i
  obtain ⟨r, o, rfl⟩ : ∃ (r : Fin 100000) (o : Fin 128), i = ix2 r o := ⟨i 0, i 1, eq_ix2 i⟩
  rw [W2_v34, W1_v32 m c x0 x1 hx0 hx1, W1_arg0 m c x0 hx0, W1_v12 m c x3 hx3, W1_v13 m c x4 hx4, W1_v33 m c x5 hx5,
    ref_h0_apply]
  exact denseG_layer (val_main_v13 (F := Ideal) x0 x1) x0 x1 x3 x4 x5 r o

end Layer0

section Stretch1

variable (m : (ℓ : Loc nD τ sig) → Buf (Elt Ideal) ℓ) (c : Dev nD)

set_option maxHeartbeats 2000000 in

theorem W3_v46 (x0 : Vec Ideal S100000x128 .f32) (x1 : Vec Ideal S2x1600000 .i32) (x3 x4 : Vec Ideal S128x128 .f32) (x5 : Vec Ideal S128 .f32)
    (hx1 : m ((c.tc : Thread nD τ).loc main_arg1) = x1)
    (hH : @Eq (Vec Ideal S100000x128 .f32) (W2 (F := Ideal) m c (Proc.devRef .tc main_call0_v34)) (val_main_v30 (F := Ideal) x0 x1 x3 x4 x5)) :
    @Eq (Vec Ideal S100000x128 .f32) (W3 (F := Ideal) m c (Proc.devRef .tc main_call0_v46))
      (aggOf (val_main_v40 (F := Ideal) x0 x1 x3 x4 x5) x1) := by
  have e0 : (TRef.of main_call0_v1 : TRef sig ⟨S1600000, .i32⟩).ofBuf (W2 m c (Proc.devRef .tc main_call0_v1)) = val_main_v1 (F := Ideal) x1 :=
    (W2_of_ne m c main_call0_v1 (by decide)).trans (W1_v1 m c x1 hx1)
  have e1 : (TRef.of main_call0_v3 : TRef sig ⟨S1600000, .i32⟩).ofBuf (W2 m c (Proc.devRef .tc main_call0_v3)) = val_main_v3 (F := Ideal) x1 :=
    (W2_of_ne m c main_call0_v3 (by decide)).trans (W1_v3 m c x1 hx1)
  have e2 : (TRef.of main_call0_v11 : TRef sig ⟨S100000x1, .f32⟩).ofBuf (W2 m c (Proc.devRef .tc main_call0_v11)) = invDeg x1 :=
    (W2_of_ne m c main_call0_v11 (by decide)).trans (W1_v11 m c x1 hx1)
  have e3 : (TRef.of main_call0_v34 : TRef sig ⟨S100000x128, .f32⟩).ofBuf (W2 m c (Proc.devRef .tc main_call0_v34))
      = val_main_v30 (F := Ideal) x0 x1 x3 x4 x5 := hH
  show StableHlo.after hostOps1 _ (Proc.devRef .tc main_call0_v46) = _
  after_results
  refine (cast_eq _ _).trans ?_
  simp only [ofBuf_toBuf, e0, e1, e2, e3]
  unfold aggOf val_main_v40 val_main_v37
  generalize val_main_v30 (F := Ideal) x0 x1 x3 x4 x5 = H0
  rfl

theorem W3_v34 (x0 : Vec Ideal S100000x128 .f32) (x1 : Vec Ideal S2x1600000 .i32) (x3 x4 : Vec Ideal S128x128 .f32) (x5 : Vec Ideal S128 .f32)
    (hH : @Eq (Vec Ideal S100000x128 .f32) (W2 (F := Ideal) m c (Proc.devRef .tc main_call0_v34)) (val_main_v30 (F := Ideal) x0 x1 x3 x4 x5)) :
    @Eq (Vec Ideal S100000x128 .f32) (W3 (F := Ideal) m c (Proc.devRef .tc main_call0_v34)) (val_main_v30 (F := Ideal) x0 x1 x3 x4 x5) := by
  show StableHlo.after hostOps1 _ (Proc.devRef .tc main_call0_v34) = _
  after_results <;> exact hH
theorem W3_v14 (x6 : Vec Ideal S128x128 .f32) (hx6 : m ((c.tc : Thread nD τ).loc main_arg6) = x6) :
    @Eq (Vec Ideal S128x128 .f32) (W3 (F := Ideal) m c (Proc.devRef .tc main_call0_v14))
      (transpose S128x128 [1, 0] x6 transposes_S128x128_S128x128_1_0) := by
  show StableHlo.after hostOps1 _ (Proc.devRef .tc main_call0_v14) = _
  after_results <;> exact (W2_of_ne m c main_call0_v14 (by decide)).trans (W1_v14 m c x6 hx6)
theorem W3_v15 (x7 : Vec Ideal S128x128 .f32) (hx7 : m ((c.tc : Thread nD τ).loc main_arg7) = x7) :
    @Eq (Vec Ideal S128x128 .f32) (W3 (F := Ideal) m c (Proc.devRef .tc main_call0_v15))
      (transpose S128x128 [1, 0] x7 transposes_S128x128_S128x128_1_0) := by
  show StableHlo.after hostOps1 _ (Proc.devRef .tc main_call0_v15) = _
  after_results <;> exact (W2_of_ne m c main_call0_v15 (by decide)).trans (W1_v15 m c x7 hx7)

theorem W3_v47 (x8 : Vec Ideal S128 .f32) (hx8 : m ((c.tc : Thread nD τ).loc main_arg8) = x8) :
    @Eq (Vec Ideal S1x128 .f32) (W3 (F := Ideal) m c (Proc.devRef .tc main_call0_v47)) (shapeCast S1x128 x8 shapeCasts_S128_S1x128) := by
  have e0 : W2 (F := Ideal) m c (Proc.devRef .tc main_arg8) = x8 := (W2_of_ne m c main_arg8 (by decide)).trans (W1_arg8 m c x8 hx8)
  show StableHlo.after hostOps1 _ (Proc.devRef .tc main_call0_v47) = _
  after_results
  simp only [e0] <;> rfl

end Stretch1

section Layer1

variable (m : (ℓ : Loc nD τ sig) → Buf (Elt Ideal) ℓ) (c : Dev nD)

theorem W4_v48 :
    @Eq (S100000x128.Idx → EReal) (W4 (F := Ideal) m c (Proc.devRef .tc main_call0_v48))
      (denseG (W3 (F := Ideal) m c (Proc.devRef .tc main_call0_v46)) (W3 (F := Ideal) m c (Proc.devRef .tc main_call0_v34))
        (W3 (F := Ideal) m c (Proc.devRef .tc main_call0_v14)) (W3 (F := Ideal) m c (Proc.devRef .tc main_call0_v15))
        (W3 (F := Ideal) m c (Proc.devRef .tc main_call0_v47))) :=
  (W4_arr m c 5).trans (final1 (V3 m) c)

-- The reference's second layer is its first layer applied to the first hidden layer, so one reading of the reference serves both.
theorem _root_.Cert.KernelIdeal.Val.h1_eq (x0 : Vec Ideal S100000x128 .f32) (x1 : Vec Ideal S2x1600000 .i32) (x3 x4 : Vec Ideal S128x128 .f32) (x5 : Vec Ideal S128 .f32)
    (x6 x7 : Vec Ideal S128x128 .f32) (x8 : Vec Ideal S128 .f32)
    (hx0 : m ((c.tc : Thread nD τ).loc main_arg0) = x0) (hx1 : m ((c.tc : Thread nD τ).loc main_arg1) = x1)
    (hx3 : m ((c.tc : Thread nD τ).loc main_arg3) = x3) (hx4 : m ((c.tc : Thread nD τ).loc main_arg4) = x4)
    (hx5 : m ((c.tc : Thread nD τ).loc main_arg5) = x5) (hx6 : m ((c.tc : Thread nD τ).loc main_arg6) = x6)
    (hx7 : m ((c.tc : Thread nD τ).loc main_arg7) = x7) (hx8 : m ((c.tc : Thread nD τ).loc main_arg8) = x8) :
    @Eq (Vec Ideal S100000x128 .f32) (W4 (F := Ideal) m c (Proc.devRef .tc main_call0_v48))
      (val_main_v57 (F := Ideal) x0 x1 x3 x4 x5 x6 x7 x8) := by
  funext i
  obtain ⟨r, o, rfl⟩ : ∃ (r : Fin 100000) (o : Fin 128), i = ix2 r o := ⟨i 0, i 1, eq_ix2 i⟩
  have hH := h0_eq m c x0 x1 x3 x4 x5 hx0 hx1 hx3 hx4 hx5
  rw [W4_v48, W3_v46 m c x0 x1 x3 x4 x5 hx1 hH, W3_v34 m c x0 x1 x3 x4 x5 hH, W3_v14 m c x6 hx6,
    W3_v15 m c x7 hx7, W3_v47 m c x8 hx8]
  exact (denseG_layer (val_main_v40 (F := Ideal) x0 x1 x3 x4 x5) (val_main_v30 (F := Ideal) x0 x1 x3 x4 x5) x1 x6 x7 x8 r o).trans
    (ref_h0_apply (val_main_v30 (F := Ideal) x0 x1 x3 x4 x5) x1 x6 x7 x8 r o).symm

end Layer1

end Layers01

end Cert.KernelIdeal.Val

end
-- ==== Proof.LibIndexing.lean ====
import Idealize.ShloMosaic.Lib.ValueIdx

noncomputable section

open scoped BigOperators

namespace Cert.LibIndexing

open Idealize.ShloMosaic Idealize.ShloMosaic.ValueIdx

section Gather
variable {α : Type}

abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

-- The result's element is the table's at the start index, read signed and clamped into the table, and the same column.
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N D E wf) x idx (ix2 e j)
      = x (ix2 ⟨min (idx (ix2 e 0)).toInt.toNat (N - 1), by omega⟩ j) := by
  unfold Host.gather
  congr 1
  funext a
  refine Fin.ext ?_
  match a with
  | ⟨0, _⟩ =>
    exact congrArg (fun i => min (idx i).toInt.toNat (N - 1) + 0 + 0)
      (funext fun b => Fin.ext (match b with | ⟨0, _⟩ => rfl | ⟨1, _⟩ => rfl))
  | ⟨1, _⟩ => show 0 + 0 + j.val = j.val; omega

end Gather

section ScatterRows
variable {N D E w : Nat}

abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable (wf : ScatterDims.WF ⟨2, ![N, D]⟩ ⟨2, ![E, 1]⟩ ⟨2, ![E, D]⟩ [1] [0] [0] 1) (idx : IVec ⟨2, ![E, 1]⟩ w)

-- On the row axis an update's window starts at its scatter index, read signed.
theorem rowScatter_start0 (e : Fin E) (j : Fin D) :
    (rowScatterDims N D E wf).start (ix2 e j) idx 0 = (idx (ix2 e 0)).toInt :=
  congrArg (fun i => (idx i).toInt) (funext fun b => Fin.ext (match b with | ⟨0, _⟩ => rfl | ⟨1, _⟩ => rfl))

-- An update lands on `(n, j)` exactly when its scatter index, read signed, is `n` and its column is `j`.
theorem rowScatter_resultIdx?_eq_some (e : Fin E) (j' : Fin D) (n : Fin N) (j : Fin D) :
    (rowScatterDims N D E wf).resultIdx? (ix2 e j') idx = some (ix2 n j)
      ↔ (idx (ix2 e 0)).toInt = (n.val : Int) ∧ j' = j := by
  have hs := rowScatter_start0 wf idx e j'
  have hn := n.isLt
  have hj := j'.isLt
  unfold ScatterDims.resultIdx?
  split
  · rename_i h
    rw [Option.some.injEq]
    constructor
    · intro heq
      have h0 : ((rowScatterDims N D E wf).start (ix2 e j') idx 0 + ((0 : ℕ) : ℤ)).toNat = n.val :=
        congrArg (fun i : (⟨2, ![N, D]⟩ : Shape).Idx => (i 0).val) heq
      have h1 : ((0 : ℤ) + ((j'.val : ℕ) : ℤ)).toNat = j.val :=
        congrArg (fun i : (⟨2, ![N, D]⟩ : Shape).Idx => (i 1).val) heq
      have hh : 0 ≤ (rowScatterDims N D E wf).start (ix2 e j') idx 0 + ((0 : ℕ) : ℤ) := (h 0).1
      rw [hs] at h0 hh
      exact ⟨by omega, Fin.ext (by omega)⟩
    · rintro ⟨ht, rfl⟩
      funext a; refine Fin.ext ?_
      match a with
      | ⟨0, _⟩ =>
        show ((rowScatterDims N D E wf).start (ix2 e j') idx 0 + ((0 : ℕ) : ℤ)).toNat = n.val
        rw [hs]; omega
      | ⟨1, _⟩ => show ((0 : ℤ) + ((j'.val : ℕ) : ℤ)).toNat = j'.val; omega
  · rename_i h
    refine iff_of_false (fun hc => Option.some_ne_none _ hc.symm) ?_
    rintro ⟨ht, rfl⟩
    refine h fun a => ?_
    match a with
    | ⟨0, _⟩ =>
      show 0 ≤ (rowScatterDims N D E wf).start (ix2 e j') idx 0 + ((0 : ℕ) : ℤ)
        ∧ (rowScatterDims N D E wf).start (ix2 e j') idx 0 + ((0 : ℕ) : ℤ) < (N : ℤ)
      rw [hs]; omega
    | ⟨1, _⟩ => show 0 ≤ (0 : ℤ) + ((j'.val : ℕ) : ℤ) ∧ (0 : ℤ) + ((j'.val : ℕ) : ℤ) < (D : ℤ); omega

-- The result's element is the operand's plus the sum of the updates whose scatter index, read signed, is its row.
theorem scatterAdd_rows_apply {φ : FTy} (x : FVec Ideal ⟨2, ![N, D]⟩ φ) (upd : FVec Ideal ⟨2, ![E, D]⟩ φ)
    (n : Fin N) (j : Fin D) :
    Host.scatterAdd (rowScatterDims N D E wf) x idx upd (ix2 n j)
      = x (ix2 n j) + ∑ e ∈ Finset.univ.filter (fun e : Fin E => (idx (ix2 e 0)).toInt = (n.val : Int)), upd (ix2 e j) := by
  show x (ix2 n j) + ∑ i ∈ Finset.univ.filter
      (fun i => (rowScatterDims N D E wf).resultIdx? i idx = some (ix2 n j)), upd i = _
  congr 1
  rw [Finset.sum_filter, sum_idx2, Finset.sum_filter]
  refine Finset.sum_congr rfl fun e _ => ?_
  simp only [rowScatter_resultIdx?_eq_some]
  by_cases ht : (idx (ix2 e 0)).toInt = (n.val : Int)
  · simp only [ht, true_and, if_true]
    rw [Finset.sum_ite_eq' Finset.univ j (fun b => upd (ix2 e b))]
    simp
  · simp only [ht, false_and, if_false, Finset.sum_const_zero]

end ScatterRows

end Cert.LibIndexing

end
-- ==== Proof.Val.Layer2Algebra.lean ====
import proofs.«415824_j75625784148324_2_alg».proof.Proof.LibIndexing
import Idealize.ShloMosaic.PureOps.Ideal
import Mathlib.Algebra.BigOperators.Ring.Finset
import Mathlib.Data.EReal.Basic

noncomputable section

open scoped BigOperators

namespace Cert.KernelIdeal.Val

open Idealize.ShloMosaic

namespace Layer2

theorem coe_finset_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem real_mean_proj_comm {E K : Type*} [Fintype K] (S : Finset E) (g : E → K → ℝ) (w : K → ℝ) (d : ℝ) :
    (∑ e ∈ S, ∑ k, g e k * w k) * (1 / d) = ∑ k, ((∑ e ∈ S, g e k) * (1 / d)) * w k := by
  rw [Finset.sum_comm, Finset.sum_mul]
  refine Finset.sum_congr rfl fun k _ => ?_
  rw [← Finset.sum_mul]
  ring

-- Every term is the image of a real; the image commutes with sums and products, so the exchange is the one in ℝ.
theorem mean_proj_comm {E K : Type*} [Fintype K] (S : Finset E) (g : E → K → EReal) (w : K → EReal)
    (hg : ∀ e k, ∃ a : ℝ, g e k = (a : EReal)) (hw : ∀ k, ∃ a : ℝ, w k = (a : EReal)) {d : ℝ} (hd : d ≠ 0) :
    (0 + ∑ e ∈ S, ∑ k, g e k * w k) * Ideal.div 1 (d : EReal)
      = ∑ k, Ideal.div (0 + ∑ e ∈ S, g e k) (d : EReal) * w k := by
  choose g' hg' using hg
  choose w' hw' using hw
  simp only [hg', hw', Ideal.div_coe hd, zero_add, one_mul]
  simp only [← EReal.coe_mul, ← coe_finset_sum]
  exact congrArg _ (real_mean_proj_comm S g' w' d)

theorem max_deg_eq {E : Type*} (S : Finset E) :
    max (0 + ∑ _e ∈ S, (1 : EReal)) 1 = ((max (S.card : ℝ) 1 : ℝ) : EReal) := by
  have h1 : (∑ _e ∈ S, (1 : EReal)) = ((S.card : ℝ) : EReal) := by
    rw [← EReal.coe_one, ← coe_finset_sum, Finset.sum_const, nsmul_eq_mul, mul_one]
  rw [zero_add, h1, ← EReal.coe_one]
  exact (EReal.coe_strictMono.monotone.map_max).symm

section Agg

open Idealize.ShloMosaic.ValueIdx Cert.LibIndexing

-- Both sides select the edges whose destination reads n and read the same source row, so mean_proj_comm applies.
theorem agg_proj_comm
    (wfG128 : GatherDims.WF ⟨2, ![100000, 128]⟩ ⟨2, ![1600000, 1]⟩ ⟨2, ![1600000, 128]⟩ [1] [0] [] [0] [] 1 ![1, 128])
    (wfG64 : GatherDims.WF ⟨2, ![100000, 64]⟩ ⟨2, ![1600000, 1]⟩ ⟨2, ![1600000, 64]⟩ [1] [0] [] [0] [] 1 ![1, 64])
    (wfS128 : ScatterDims.WF ⟨2, ![100000, 128]⟩ ⟨2, ![1600000, 1]⟩ ⟨2, ![1600000, 128]⟩ [1] [0] [0] 1)
    (wfS64 : ScatterDims.WF ⟨2, ![100000, 64]⟩ ⟨2, ![1600000, 1]⟩ ⟨2, ![1600000, 64]⟩ [1] [0] [0] 1)
    (wfS1 wfS1' : ScatterDims.WF ⟨2, ![100000, 1]⟩ ⟨2, ![1600000, 1]⟩ ⟨2, ![1600000, 1]⟩ [1] [0] [0] 1)
    (h : FVec Ideal ⟨2, ![100000, 128]⟩ .f32) (wT : FVec Ideal ⟨2, ![128, 64]⟩ .f32) (P : FVec Ideal ⟨2, ![100000, 64]⟩ .f32)
    (hP : ∀ (r : Fin 100000) (f : Fin 64), P (ix2 r f) = ∑ k : Fin 128, h (ix2 r k) * wT (ix2 k f))
    (hh : ∀ i, ∃ a : ℝ, h i = (a : EReal)) (hw : ∀ i, ∃ a : ℝ, wT i = (a : EReal))
    (src dst : IVec ⟨2, ![1600000, 1]⟩ 32)
    (z128 : FVec Ideal ⟨2, ![100000, 128]⟩ .f32) (z64 : FVec Ideal ⟨2, ![100000, 64]⟩ .f32)
    (z1 z1' : FVec Ideal ⟨2, ![100000, 1]⟩ .f32) (o o' : FVec Ideal ⟨2, ![1600000, 1]⟩ .f32)
    (hz128 : ∀ i, z128 i = 0) (hz64 : ∀ i, z64 i = 0) (hz1 : ∀ i, z1 i = 0) (hz1' : ∀ i, z1' i = 0)
    (ho : ∀ i, o i = 1) (ho' : ∀ i, o' i = 1)
    (n : Fin 100000) (f : Fin 64) :
    Host.scatterAdd (rowScatterDims 100000 64 1600000 wfS64) z64 dst
          (Host.gather (rowGatherDims 100000 64 1600000 wfG64) P src) (ix2 n f)
        * Ideal.div 1 (max (Host.scatterAdd (rowScatterDims 100000 1 1600000 wfS1) z1 dst o (ix2 n 0)) 1)
      = ∑ k : Fin 128,
          Ideal.div (Host.scatterAdd (rowScatterDims 100000 128 1600000 wfS128) z128 dst
              (Host.gather (rowGatherDims 100000 128 1600000 wfG128) h src) (ix2 n k))
            (max (Host.scatterAdd (rowScatterDims 100000 1 1600000 wfS1') z1' dst o' (ix2 n 0)) 1) * wT (ix2 k f) := by
  rw [scatterAdd_rows_apply wfS64, scatterAdd_rows_apply wfS1]
  simp only [scatterAdd_rows_apply wfS128, scatterAdd_rows_apply wfS1',
    gather_rows_apply (by norm_num : 0 < 100000) wfG64, gather_rows_apply (by norm_num : 0 < 100000) wfG128,
    hz128, hz64, hz1, hz1', ho, ho', hP]
  rw [max_deg_eq]
  exact mean_proj_comm _ (fun e k => h (ix2 ⟨min (src (ix2 e 0)).toInt.toNat (100000 - 1), by omega⟩ k))
    (fun k => wT (ix2 k f)) (fun e k => hh _) (fun k => hw _) (one_pos.trans_le (le_max_right _ _)).ne'

end Agg

end Layer2

section Emb

open Idealize.ShloMosaic.ValueIdx

def embK (H1 : (⟨2, ![100000, 128]⟩ : Shape).Idx → EReal) (W : (⟨2, ![128, 64]⟩ : Shape).Idx → EReal)
    (AGG : (⟨2, ![100000, 64]⟩ : Shape).Idx → EReal) (B : (⟨2, ![1, 64]⟩ : Shape).Idx → EReal)
    (n : Fin 100000) (f : Fin 64) : EReal :=
  (∑ k : Fin 128, H1 (ix2 n k) * W (ix2 k f)) + AGG (ix2 n f) + B (ix2 0 f)

end Emb

end Cert.KernelIdeal.Val

end
-- ==== Proof.Val.Layer2.lean ====
import proofs.«415824_j75625784148324_2_alg».proof.Proof.KI.ChainA
import proofs.«415824_j75625784148324_2_alg».proof.Proof.Gen.KernelIdeal.Regions
import proofs.«415824_j75625784148324_2_alg».proof.Proof.Gen.ReferenceIdeal.Read
import proofs.«415824_j75625784148324_2_alg».proof.Proof.LibIndexing
import proofs.«415824_j75625784148324_2_alg».proof.Proof.Val.Layer2Algebra
import proofs.«415824_j75625784148324_2_alg».proof.Proof.Val.Dense
import Idealize.ShloMosaic.Lib.IdealHost
import Idealize.ShloMosaic.Lib.StableHlo.Run

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.StableHlo
open Cert.ReferenceIdeal.Read
open scoped BigOperators

variable (m : (ℓ : Loc nD τ sig) → Buf (Elt Ideal) ℓ) (c : Dev nD)
variable (x0 : (⟨Cert.ReferenceIdeal.S100000x128, .f32⟩ : BufTy).Contents (Elt Ideal))
  (x1 : (⟨Cert.ReferenceIdeal.S2x1600000, .i32⟩ : BufTy).Contents (Elt Ideal))
  (x3 x4 : (⟨Cert.ReferenceIdeal.S128x128, .f32⟩ : BufTy).Contents (Elt Ideal)) (x5 : (⟨Cert.ReferenceIdeal.S128, .f32⟩ : BufTy).Contents (Elt Ideal))
  (x6 x7 : (⟨Cert.ReferenceIdeal.S128x128, .f32⟩ : BufTy).Contents (Elt Ideal)) (x8 : (⟨Cert.ReferenceIdeal.S128, .f32⟩ : BufTy).Contents (Elt Ideal))
  (x9 x10 : (⟨Cert.ReferenceIdeal.S64x128, .f32⟩ : BufTy).Contents (Elt Ideal)) (x11 : (⟨Cert.ReferenceIdeal.S64, .f32⟩ : BufTy).Contents (Elt Ideal))

namespace Layer2

theorem W6_v48 : W6 (F := Ideal) m c (Proc.devRef .tc main_call0_v48) = W4 m c (Proc.devRef .tc main_call0_v48) := by
  refine (StableHlo.after_of_writes_sub hostOps3 _ hostOps3_writes (by decide)).trans ?_
  refine (W5_arr m c 0).trans ?_
  exact (dat2 (V4 m) c).arrAt_in 0 rfl cfg2.N

theorem W5_eq_W1 (r : Ref sig .tc) (h0 : ∀ w, Pipeline.arrRef spec0 w ≠ r := by decide)
    (h1 : ∀ w, Pipeline.arrRef spec1 w ≠ r := by decide) (h2 : ∀ w, Pipeline.arrRef spec2 w ≠ r := by decide)
    (hh : r ∉ hostOps1_W := by decide) :
    W5 (F := Ideal) m c (Proc.devRef .tc r) = W1 m c (Proc.devRef .tc r) :=
  (W5_of_ne m c r h2).trans <| (W4_of_ne m c r h1).trans <|
    (StableHlo.after_of_writes_sub hostOps1 _ hostOps1_writes hh).trans (W2_of_ne m c r h0)

theorem W6_v17 : W6 (F := Ideal) m c (Proc.devRef .tc main_call0_v17) = W1 m c (Proc.devRef .tc main_call0_v17) :=
  (StableHlo.after_of_writes_sub hostOps3 _ hostOps3_writes (by decide)).trans
    (W5_eq_W1 m c _)
theorem W4_v16 : W4 (F := Ideal) m c (Proc.devRef .tc main_call0_v16) = W1 m c (Proc.devRef .tc main_call0_v16) :=
  (W4_of_ne m c _ (by decide)).trans <|
    (StableHlo.after_of_writes_sub hostOps1 _ hostOps1_writes (by decide)).trans (W2_of_ne m c _ (by decide))

theorem W5_arg11 : W5 (F := Ideal) m c (Proc.devRef .tc main_arg11) = m ((c.tc : Thread nD τ).loc main_arg11) :=
  (W5_eq_W1 m c _).trans
    (StableHlo.after_of_writes_sub hostOps0 _ hostOps0_writes (by decide))

theorem W1_v17 (hx10 : m ((c.tc : Thread nD τ).loc main_arg10) = x10) :
    (W1 (F := Ideal) m c (Proc.devRef .tc main_call0_v17) : FVec Ideal S128x64 .f32) = val_main_v78 (F := Ideal) x10 := by
  subst hx10
  show StableHlo.after hostOps0 _ (Proc.devRef .tc main_call0_v17) = _
  after_results_simp
  simp only [TRef.ofBuf, TRef.toBuf, cast_eq]
  unfold val_main_v78
  rfl

theorem W1_v16 (hx9 : m ((c.tc : Thread nD τ).loc main_arg9) = x9) :
    (W1 (F := Ideal) m c (Proc.devRef .tc main_call0_v16) : FVec Ideal S128x64 .f32) = val_main_v76 (F := Ideal) x9 := by
  subst hx9
  show StableHlo.after hostOps0 _ (Proc.devRef .tc main_call0_v16) = _
  after_results_simp
  simp only [TRef.ofBuf, TRef.toBuf, cast_eq]
  unfold val_main_v76
  rfl

theorem ofBuf_toBuf {Val : EltTy → Type} {T : BufTy} (x : TRef sig T) (v : T.Contents Val) : x.ofBuf (x.toBuf v) = v := by
  obtain ⟨r, h, h2, h3⟩ := x
  subst h
  rfl

theorem ofBuf_congr {Val : EltTy → Type} {T : BufTy} (x : TRef sig T) (w : x.ref.ty.Contents Val) (w' : T.Contents Val)
    (h : HEq w w') : x.ofBuf w = w' := by
  obtain ⟨r, h1, h2, h3⟩ := x
  subst h1
  exact eq_of_heq h

theorem W1_v11 (hx1 : m ((c.tc : Thread nD τ).loc main_arg1) = x1) :
    @Eq (FVec Ideal S100000x1 .f32)
      ((TRef.of main_call0_v11 : TRef sig ⟨S100000x1, .f32⟩).ofBuf (W1 (F := Ideal) m c (Proc.devRef .tc main_call0_v11)))
      (Host.divf (val_main_v72 (F := Ideal)) (val_main_v73 (F := Ideal) x1)) := by
  have hx1' : (TRef.of main_arg1 : TRef sig ⟨S2x1600000, .i32⟩).ofBuf (W0 m c (Proc.devRef .tc main_arg1)) = x1 := hx1
  show (TRef.of main_call0_v11 : TRef sig ⟨S100000x1, .f32⟩).ofBuf (StableHlo.after hostOps0 _ (Proc.devRef .tc main_call0_v11)) = _
  after_results_simp
  simp only [ofBuf_toBuf]
  rw [hx1']
  unfold val_main_v73 val_main_v72 val_main_v71 val_main_v70 val_main_v69 val_main_v68 val_main_cst_15 val_main_cst_14
    val_main_cst_13 val_main_v3 val_main_v2
  rfl

theorem W1_v1' (hx1 : m ((c.tc : Thread nD τ).loc main_arg1) = x1) :
    (TRef.of main_call0_v1 : TRef sig ⟨S1600000, .i32⟩).ofBuf (W1 (F := Ideal) m c (Proc.devRef .tc main_call0_v1))
      = val_main_v1 (F := Ideal) x1 := by
  subst hx1
  refine ofBuf_congr _ _ _ (heq_of_eq ?_)
  show StableHlo.after hostOps0 _ (Proc.devRef .tc main_call0_v1) = _
  after_results_simp
  simp only [TRef.ofBuf, TRef.toBuf, cast_eq]
  unfold val_main_v1 val_main_v0
  rfl

theorem W1_v3' (hx1 : m ((c.tc : Thread nD τ).loc main_arg1) = x1) :
    (TRef.of main_call0_v3 : TRef sig ⟨S1600000, .i32⟩).ofBuf (W1 (F := Ideal) m c (Proc.devRef .tc main_call0_v3))
      = val_main_v3 (F := Ideal) x1 := by
  subst hx1
  refine ofBuf_congr _ _ _ (heq_of_eq ?_)
  show StableHlo.after hostOps0 _ (Proc.devRef .tc main_call0_v3) = _
  after_results_simp
  simp only [TRef.ofBuf, TRef.toBuf, cast_eq]
  unfold val_main_v3 val_main_v2
  rfl

-- The aggregate: rows of P gathered at the sources, summed at the destinations, times the reciprocal clamped degree.
def aggK (P : FVec Ideal S100000x64 .f32) : FVec Ideal S100000x64 .f32 :=
  mulf
    (Host.scatterAdd scatter_S100000x64_S1600000x1_S1600000x64_1_0_0_1
      (broadcastInDim S100000x64 ![] bcast_S_S100000x64 (constant S_ .f32 0x00000000#32))
      (val_main_v66 (F := Ideal) x1)
      (Host.gather gather_S100000x64_S1600000x1_S1600000x64_1_0_n_n_0_1_164 P (val_main_v63 (F := Ideal) x1)))
    (broadcastInDim S100000x64 ![0, 1] bcast_S100000x1_S100000x64_0_1
      (Host.divf (val_main_v72 (F := Ideal)) (val_main_v73 (F := Ideal) x1)))

theorem W6_v61 (hx1 : m ((c.tc : Thread nD τ).loc main_arg1) = x1) (P : FVec Ideal S100000x64 .f32)
    (hP : (TRef.of main_call0_v49 : TRef sig ⟨S100000x64, .f32⟩).ofBuf (W5 (F := Ideal) m c (Proc.devRef .tc main_call0_v49)) = P) :
    @Eq (FVec Ideal S100000x64 .f32)
      ((TRef.of main_call0_v61 : TRef sig ⟨S100000x64, .f32⟩).ofBuf (W6 (F := Ideal) m c (Proc.devRef .tc main_call0_v61)))
      (aggK x1 P) := by
  show (TRef.of main_call0_v61 : TRef sig ⟨S100000x64, .f32⟩).ofBuf (StableHlo.after hostOps3 _ (Proc.devRef .tc main_call0_v61)) = _
  after_results_simp
  simp only [ofBuf_toBuf]
  rw [hP, W5_eq_W1 m c main_call0_v1, W5_eq_W1 m c main_call0_v3, W5_eq_W1 m c main_call0_v11, W1_v11 m c x1 hx1, W1_v1' m c x1 hx1, W1_v3' m c x1 hx1]
  unfold aggK val_main_v66 val_main_v63 val_main_v62 val_main_v61 val_main_v59 val_main_v60 val_main_v58 val_main_c_10 val_main_c_11
  rfl

theorem heq_of_ofBuf_eq {Val : EltTy → Type} {T : BufTy} (x : TRef sig T) (w : x.ref.ty.Contents Val) (w' : T.Contents Val)
    (h : x.ofBuf w = w') : HEq w w' := by
  obtain ⟨r, h1, h2, h3⟩ := x
  subst h1
  exact heq_of_eq h

theorem W6_v63 (hx11 : m ((c.tc : Thread nD τ).loc main_arg11) = x11) :
    @Eq (FVec Ideal S1x64 .f32)
      ((TRef.of main_call0_v63 : TRef sig ⟨S1x64, .f32⟩).ofBuf (W6 (F := Ideal) m c (Proc.devRef .tc main_call0_v63)))
      (shapeCast S1x64 x11 shapeCasts_S64_S1x64) := by
  show (TRef.of main_call0_v63 : TRef sig ⟨S1x64, .f32⟩).ofBuf (StableHlo.after hostOps3 _ (Proc.devRef .tc main_call0_v63)) = _
  after_results_simp
  rw [W5_arg11, hx11]
  exact ofBuf_congr _ _ _ HEq.rfl

theorem W5_v49 (hx9 : m ((c.tc : Thread nD τ).loc main_arg9) = x9)
    (h1 : @Eq (FVec Ideal S100000x128 .f32) (W4 (F := Ideal) m c (Proc.devRef .tc main_call0_v48))
      (val_main_v57 (F := Ideal) x0 x1 x3 x4 x5 x6 x7 x8)) :
    @Eq (FVec Ideal S100000x64 .f32)
      ((TRef.of main_call0_v49 : TRef sig ⟨S100000x64, .f32⟩).ofBuf (W5 (F := Ideal) m c (Proc.devRef .tc main_call0_v49)))
      (projG (val_main_v57 (F := Ideal) x0 x1 x3 x4 x5 x6 x7 x8) (val_main_v76 (F := Ideal) x9)) := by
  refine ofBuf_congr _ _ _ (heq_of_eq ?_)
  refine (W5_arr m c 2).trans ?_
  refine (final2 (V4 m) c).trans ?_
  rw [show V4 m c (Pipeline.arrRef spec2 0) = _ from h1,
    show V4 m c (Pipeline.arrRef spec2 1) = _ from (W4_v16 m c).trans (W1_v16 m c x9 hx9)]

theorem lidx77 (n : Fin 100000) (f : Fin 64) (k : Fin 128) : lidx_main_v77 (ix2 n f) k = ix2 n k :=
  (eq_ix2 _).trans rfl
theorem ridx77 (n : Fin 100000) (f : Fin 64) (k : Fin 128) : ridx_main_v77 (ix2 n f) k = ix2 k f :=
  (eq_ix2 _).trans rfl
theorem lidx79 (n : Fin 100000) (f : Fin 64) (k : Fin 128) : lidx_main_v79 (ix2 n f) k = ix2 n k :=
  (eq_ix2 _).trans rfl
theorem ridx79 (n : Fin 100000) (f : Fin 64) (k : Fin 128) : ridx_main_v79 (ix2 n f) k = ix2 k f :=
  (eq_ix2 _).trans rfl
theorem idx74 (n : Fin 100000) (k : Fin 128) : idx_main_v74 (ix2 n k) = ix2 n 0 :=
  (eq_ix2 _).trans rfl
theorem idx82 (n : Fin 100000) (f : Fin 64) : idx_main_v82 (ix2 n f) = ix2 0 f :=
  (eq_ix2 _).trans rfl

theorem mulf_apply {s : Shape} (a b : FVec Ideal s .f32) (i : s.Idx) : mulf a b i = a i * b i := rfl

theorem zeros64_apply (i : S100000x64.Idx) :
    broadcastInDim S100000x64 ![] bcast_S_S100000x64 (constant (F := Ideal) S_ .f32 0x00000000#32) i = 0 := by
  rw [broadcastInDim_scalar_apply]; exact Ideal.ofBits_zero_f32
theorem v65_apply (i : Cert.ReferenceIdeal.S100000x128.Idx) : val_main_v65 (F := Ideal) i = 0 := by
  rw [val_main_v65_apply, val_main_cst_12_apply]; exact Ideal.ofBits_zero_f32
theorem v69_apply (i : Cert.ReferenceIdeal.S100000x1.Idx) : val_main_v69 (F := Ideal) i = 0 := by
  rw [val_main_v69_apply, val_main_cst_14_apply]; exact Ideal.ofBits_zero_f32
theorem v68_apply (i : Cert.ReferenceIdeal.S1600000x1.Idx) : val_main_v68 (F := Ideal) i = 1 := by
  rw [val_main_v68_apply, val_main_cst_13_apply]; exact Ideal.ofBits_one_f32
theorem v72_apply (i : Cert.ReferenceIdeal.S100000x1.Idx) : val_main_v72 (F := Ideal) i = 1 := by
  rw [val_main_v72_apply, val_main_cst_15_apply]; exact Ideal.ofBits_one_f32

theorem bcast64_apply (y : FVec Ideal S100000x1 .f32) (n : Fin 100000) (f : Fin 64) :
    broadcastInDim S100000x64 ![0, 1] bcast_S100000x1_S100000x64_0_1 y (ix2 n f) = y (ix2 n 0) :=
  broadcastInDim_apply _ bcast_S100000x1_S100000x64_0_1 y (ix2 n f) (ix2 n 0) (fun a => match a with
    | ⟨0, _⟩ => by show n.val = if (100000 : Nat) = 1 then 0 else n.val; rw [if_neg (by decide)]
    | ⟨1, _⟩ => by show 0 = if (1 : Nat) = 1 then 0 else f.val; rw [if_pos rfl])

theorem agg_eq (hfin1 : ∀ i, ∃ a : ℝ, val_main_v57 (F := Ideal) x0 x1 x3 x4 x5 x6 x7 x8 i = (a : EReal))
    (hfin9 : ∀ i, ∃ a : ℝ, x9 i = (a : EReal))
    (n : Fin 100000) (f : Fin 64) :
    aggK x1 (projG (val_main_v57 (F := Ideal) x0 x1 x3 x4 x5 x6 x7 x8) (val_main_v76 (F := Ideal) x9)) (ix2 n f)
      = val_main_v77 (F := Ideal) x0 x1 x3 x4 x5 x6 x7 x8 x9 (ix2 n f) := by
  unfold aggK
  have hw : ∀ i, ∃ a : ℝ, val_main_v76 (F := Ideal) x9 i = (a : EReal) := fun i => by
    rw [val_main_v76_apply]; exact hfin9 _
  rw [val_main_v77_apply, mulf_apply, bcast64_apply, hostDivf_apply, v72_apply, val_main_v73_apply, v72_apply,
    Ideal.maximumf_def]
  have hR : ∀ k : Fin 128,
      (val_main_v75 (F := Ideal) x0 x1 x3 x4 x5 x6 x7 x8) (lidx_main_v77 (ix2 n f) k)
          * (val_main_v76 (F := Ideal) x9) (ridx_main_v77 (ix2 n f) k)
        = Ideal.div (val_main_v67 (F := Ideal) x0 x1 x3 x4 x5 x6 x7 x8 (ix2 n k))
            (max (val_main_v71 (F := Ideal) x1 (ix2 n 0)) 1) * val_main_v76 (F := Ideal) x9 (ix2 k f) := fun k => by
    rw [lidx77, ridx77, val_main_v75_apply, val_main_v74_apply, idx74, val_main_v73_apply, v72_apply,
      Ideal.hostDivf_def, Ideal.maximumf_def]
  rw [Finset.sum_congr rfl (fun k _ => hR k)]
  unfold val_main_v71 val_main_v67 val_main_v64
  rw [show val_main_v70 (F := Ideal) x1 = val_main_v66 (F := Ideal) x1 from rfl]
  exact agg_proj_comm Cert.ReferenceIdeal.Facts₀.gather_S100000x128_S1600000x1_S1600000x128_1_0_n_n_0_1_1128_wf
      Facts₀.gather_S100000x64_S1600000x1_S1600000x64_1_0_n_n_0_1_164_wf
      Cert.ReferenceIdeal.Facts₀.scatter_S100000x128_S1600000x1_S1600000x128_1_0_0_1_wf
      Facts₀.scatter_S100000x64_S1600000x1_S1600000x64_1_0_0_1_wf
      Cert.ReferenceIdeal.Facts₀.scatter_S100000x1_S1600000x1_S1600000x1_1_0_0_1_wf
      Cert.ReferenceIdeal.Facts₀.scatter_S100000x1_S1600000x1_S1600000x1_1_0_0_1_wf
      (val_main_v57 (F := Ideal) x0 x1 x3 x4 x5 x6 x7 x8) (val_main_v76 (F := Ideal) x9) _
      (fun r f => projG_apply _ _ r f) hfin1 hw (val_main_v63 (F := Ideal) x1) (val_main_v66 (F := Ideal) x1)
      (val_main_v65 (F := Ideal)) _ (val_main_v69 (F := Ideal)) (val_main_v69 (F := Ideal))
      (val_main_v68 (F := Ideal)) (val_main_v68 (F := Ideal))
      v65_apply zeros64_apply v69_apply v69_apply v68_apply v68_apply n f

end Layer2

open Layer2 in

theorem emb_eq (hx1 : m ((c.tc : Thread nD τ).loc main_arg1) = x1) (hx9 : m ((c.tc : Thread nD τ).loc main_arg9) = x9)
    (hx10 : m ((c.tc : Thread nD τ).loc main_arg10) = x10) (hx11 : m ((c.tc : Thread nD τ).loc main_arg11) = x11)
    (h1 : @Eq (FVec Ideal S100000x128 .f32) (W4 (F := Ideal) m c (Proc.devRef .tc main_call0_v48))
      (val_main_v57 (F := Ideal) x0 x1 x3 x4 x5 x6 x7 x8))
    (hfin1 : ∀ i, ∃ a : ℝ, val_main_v57 (F := Ideal) x0 x1 x3 x4 x5 x6 x7 x8 i = (a : EReal))
    (hfin9 : ∀ i, ∃ a : ℝ, x9 i = (a : EReal))
    (n : Fin 100000) (f : Fin 64) :
    embK (W6 (F := Ideal) m c (Proc.devRef .tc main_call0_v48)) (W6 (F := Ideal) m c (Proc.devRef .tc main_call0_v17))
        (W6 (F := Ideal) m c (Proc.devRef .tc main_call0_v61)) (W6 (F := Ideal) m c (Proc.devRef .tc main_call0_v63)) n f
      = val_main_v83 (F := Ideal) x0 x1 x3 x4 x5 x6 x7 x8 x9 x10 x11 (ix2 n f) := by
  have e61 := eq_of_heq (heq_of_ofBuf_eq _ _ _
    (W6_v61 m c x1 hx1 _ (W5_v49 m c x0 x1 x3 x4 x5 x6 x7 x8 x9 hx9 h1)))
  have e63 := eq_of_heq (heq_of_ofBuf_eq _ _ _ (W6_v63 m c x11 hx11))
  rw [(W6_v48 m c).trans h1, (W6_v17 m c).trans (W1_v17 m c x10 hx10), e61, e63, embK, val_main_v83_apply, val_main_v80_apply, Ideal.addf_def, Ideal.addf_def,
    agg_eq x0 x1 x3 x4 x5 x6 x7 x8 x9 hfin1 hfin9 n f]
  simp only [val_main_v79_apply, lidx79, ridx79]
  have hB : (shapeCast S1x64 x11 shapeCasts_S64_S1x64 : FVec Ideal S1x64 .f32) (ix2 0 f)
      = val_main_v82 (F := Ideal) x11 (ix2 n f) := by
    rw [val_main_v82_apply, idx82, val_main_v81_apply, shapeCast_a_1a_apply]
    exact congrArg x11 ((eq_ix1 _).trans rfl).symm
  rw [hB, add_comm (val_main_v77 (F := Ideal) x0 x1 x3 x4 x5 x6 x7 x8 x9 (ix2 n f))]

end Cert.KernelIdeal.Val

end
-- ==== Proof.Val.PoolPay.lean ====
import proofs.«415824_j75625784148324_2_alg».proof.Proof.Gen.KernelIdeal.Skeleton
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws

noncomputable section

namespace Cert.KernelIdeal.Val

open Cert.KernelIdeal Cert.KernelIdeal.Gen Idealize.ShloMosaic Idealize.ShloMosaic.ValueIdx Idealize.SL.Sem
open scoped BigOperators

namespace PoolPay

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

-- An equality test, as a number, is one when it holds and zero when it does not.
theorem sitofp_extui_cmpi_eq (x y : BitVec 32) :
    FloatOps.sitofp (F := Ideal) .f32 ((IntOp.cmpi .eq x y).setWidth 32) = if x = y then (1 : EReal) else 0 := by
  show ((((IntOp.cmpi .eq x y).setWidth 32).toInt : ℝ) : EReal) = _
  rw [toInt_setWidth_bit]
  by_cases h : x = y
  · simp [IntOp.cmpi, h]
  · simp [IntOp.cmpi, h, beq_eq_false_iff_ne.mpr h]

-- A product with one contracting axis, accumulated into zero, is the sum over that axis' coordinate `k` of the operands at the indices `l k`, `r k` the dimension numbers name.
theorem matmul_zero_apply {sl sr so : Shape} (D : DotDims sl sr so) (n : ℕ) (hr : D.contr.rank = 1)
    (hs : D.contr.size ⟨0, by omega⟩ = n) (L : FVec Ideal sl .f32) (R : FVec Ideal sr .f32) (i : so.Idx)
    (l : Fin n → sl.Idx) (r : Fin n → sr.Idx)
    (hl : ∀ k, D.lhsIdx i ((contrEquiv1 D n hr hs).symm k) = l k)
    (hr' : ∀ k, D.rhsIdx i ((contrEquiv1 D n hr hs).symm k) = r k) :
    matmul D none L R (constant (F := Ideal) so .f32 0x00000000#32) i = ∑ k : Fin n, L (l k) * R (r k) := by
  simp only [matmul]
  rw [Ideal.matmul_constant_zero_apply, ← Equiv.sum_comp (contrEquiv1 D n hr hs).symm]
  exact Finset.sum_congr rfl fun k _ => by rw [hl, hr']

theorem matmul_proj_apply (L : FVec Ideal S10000x128 .f32) (R : FVec Ideal S128x64 .f32) (r : Fin 10000) (f : Fin 64) :
    matmul dot_S10000x128_S128x64_S10000x64_1_0_0_1_n_n none L R (constant (F := Ideal) S10000x64 .f32 0x00000000#32) (ix2 r f)
      = ∑ k : Fin 128, L (ix2 r k) * R (ix2 k f) :=
  matmul_zero_apply _ _ rfl rfl L R _ _ _ (fun _ => Shape.idx_ext₂ rfl rfl) (fun _ => Shape.idx_ext₂ rfl rfl)

theorem matmul_pool_apply (L : FVec Ideal S10000x64 .f32) (R : FVec Ideal S10000x64 .f32) (g f : Fin 64) :
    matmul dot_S10000x64_S10000x64_S64x64_0_0_1_1_n_n none L R (constant (F := Ideal) S64x64 .f32 0x00000000#32) (ix2 g f)
      = ∑ k : Fin 10000, L (ix2 k g) * R (ix2 k f) :=
  matmul_zero_apply _ _ rfl rfl L R _ _ _ (fun _ => Shape.idx_ext₂ rfl rfl) (fun _ => Shape.idx_ext₂ rfl rfl)

theorem matmul_cnt_apply (L : FVec Ideal S10000x64 .f32) (R : FVec Ideal S10000x1 .f32) (g : Fin 64) (c : Fin 1) :
    matmul dot_S10000x64_S10000x1_S64x1_0_0_1_1_n_n none L R (constant (F := Ideal) S64x1 .f32 0x00000000#32) (ix2 g c)
      = ∑ k : Fin 10000, L (ix2 k g) * R (ix2 k c) :=
  matmul_zero_apply _ _ rfl rfl L R _ _ _ (fun _ => Shape.idx_ext₂ rfl rfl) (fun _ => Shape.idx_ext₂ rfl rfl)

theorem matmul_hid_apply (L : FVec Ideal S64x64 .f32) (R : FVec Ideal S64x64 .f32) (g j : Fin 64) :
    matmul dot_S64x64_S64x64_S64x64_1_0_0_1_n_n none L R (constant (F := Ideal) S64x64 .f32 0x00000000#32) (ix2 g j)
      = ∑ k : Fin 64, L (ix2 g k) * R (ix2 k j) :=
  matmul_zero_apply _ _ rfl rfl L R _ _ _ (fun _ => Shape.idx_ext₂ rfl rfl) (fun _ => Shape.idx_ext₂ rfl rfl)

theorem matmul_out_apply (L : FVec Ideal S64x64 .f32) (R : FVec Ideal S64x1 .f32) (g : Fin 64) (c : Fin 1) :
    matmul dot_S64x64_S64x1_S64x1_1_0_0_1_n_n none L R (constant (F := Ideal) S64x1 .f32 0x00000000#32) (ix2 g c)
      = ∑ k : Fin 64, L (ix2 g k) * R (ix2 k c) :=
  matmul_zero_apply _ _ rfl rfl L R _ _ _ (fun _ => Shape.idx_ext₂ rfl rfl) (fun _ => Shape.idx_ext₂ rfl rfl)

theorem scalar_zero_f32 : (Scalar.ofBits .f32 0x00000000#32 : Ideal .f32) = (0 : EReal) := Ideal.ofBits_zero_f32
theorem scalar_one_f32 : (Scalar.ofBits .f32 0x3F800000#32 : Ideal .f32) = (1 : EReal) := Ideal.ofBits_one_f32

end PoolPay

open PoolPay

theorem k3_pay5_apply (v15 : Vec Ideal S10000x1 .i32) (r : Fin 10000) (g : Fin 64) :
    k3_pay5 (F := Ideal) v15 (ix2 r g) = if v15 (ix2 r (0 : Fin 1)) = BitVec.ofNat 32 g.val then (1 : EReal) else 0 := by
  unfold k3_pay5
  rw [sitofp_apply, extui_apply]
  show FloatOps.sitofp (F := Ideal) .f32 ((IntOp.cmpi .eq _ _).setWidth 32) = _
  rw [sitofp_extui_cmpi_eq, broadcastTo_a1_ab_apply, broadcastTo_1b_ab_apply, shapeCast_self, iota_single_apply]

theorem k3_pay6_apply (v3 : Vec Ideal S10000x128 .f32) (v5 : Vec Ideal S128x64 .f32) (v8 : Vec Ideal S10000x64 .f32)
    (v11 : Vec Ideal S1x64 .f32) (v15 : Vec Ideal S10000x1 .i32) (v23 : Vec Ideal S64x64 .f32) (g f : Fin 64) :
    k3_pay6 (F := Ideal) v3 v5 v8 v11 v15 v23 (ix2 g f)
      = v23 (ix2 g f) + ∑ r : Fin 10000, k3_pay5 (F := Ideal) v15 (ix2 r g)
          * ((∑ k : Fin 128, v3 (ix2 r k) * v5 (ix2 k f)) + v8 (ix2 r f) + v11 (ix2 (0 : Fin 1) f)) := by
  unfold k3_pay6
  rw [shapeCast_self, addf_apply, matmul_pool_apply]
  refine congrArg (v23 (ix2 g f) + ·) (Finset.sum_congr rfl fun r _ => ?_)
  rw [addf_apply, addf_apply, matmul_proj_apply, broadcastTo_1b_ab_apply]
  simp only [shapeCast_self]

theorem k3_pay1_pay7_apply (v15 : Vec Ideal S10000x1 .i32) (v30 : Vec Ideal S64x1 .f32) (g : Fin 64) :
    k3_pay1 (F := Ideal) (k3_pay7 (F := Ideal) v15 v30) (ix2 g (0 : Fin 1))
      = v30 (ix2 g (0 : Fin 1)) + ∑ r : Fin 10000, k3_pay5 (F := Ideal) v15 (ix2 r g) * 1 := by
  unfold k3_pay1 k3_pay7
  rw [shapeCast_self, addf_apply, matmul_cnt_apply]
  refine congrArg (v30 (ix2 g (0 : Fin 1)) + ·) (Finset.sum_congr rfl fun r _ => ?_)
  rw [broadcast_apply, scalar_one_f32]

theorem k3_pay3_apply (g f : Fin 64) : k3_pay3 (F := Ideal) (ix2 g f) = 0 := by
  unfold k3_pay3
  rw [shapeCast_self, broadcast_apply, scalar_zero_f32]
theorem k3_pay4_apply (g : Fin 64) : k3_pay4 (F := Ideal) (ix2 g (0 : Fin 1)) = 0 := by
  unfold k3_pay4
  rw [shapeCast_self, broadcast_apply, scalar_zero_f32]

def mlpG (v39 : Vec Ideal S64x64 .f32) (v40 : Vec Ideal S64x1 .f32) (g k : Fin 64) : EReal :=
  Ideal.div (v39 (ix2 g k)) (max (v40 (ix2 g (0 : Fin 1))) 1)

def headH1 (M : Fin 64 → Fin 64 → EReal) (W1 : Vec Ideal S64x64 .f32) (b1 : Vec Ideal S1x64 .f32) (g j : Fin 64) : EReal :=
  max ((∑ k : Fin 64, M g k * W1 (ix2 k j)) + b1 (ix2 (0 : Fin 1) j)) 0

def headH2 (M : Fin 64 → Fin 64 → EReal) (W1 : Vec Ideal S64x64 .f32) (b1 : Vec Ideal S1x64 .f32)
    (W2 : Vec Ideal S64x64 .f32) (b2 : Vec Ideal S1x64 .f32) (g j : Fin 64) : EReal :=
  max ((∑ k : Fin 64, headH1 M W1 b1 g k * W2 (ix2 k j)) + b2 (ix2 (0 : Fin 1) j)) 0

def headOut (M : Fin 64 → Fin 64 → EReal) (W1 : Vec Ideal S64x64 .f32) (b1 : Vec Ideal S1x64 .f32)
    (W2 : Vec Ideal S64x64 .f32) (b2 : Vec Ideal S1x64 .f32) (W3 : Vec Ideal S64x1 .f32) (b3 : Vec Ideal S1x1 .f32)
    (g : Fin 64) : EReal :=
  (∑ k : Fin 64, headH2 M W1 b1 W2 b2 g k * W3 (ix2 k (0 : Fin 1))) + b3 (ix2 (0 : Fin 1) (0 : Fin 1))

-- The region's result is the three-layer head on the quotients of the two accumulators.
theorem k3_pay2_apply (v39 : Vec Ideal S64x64 .f32) (v40 : Vec Ideal S64x1 .f32) (v45 : Vec Ideal S64x64 .f32)
    (v48 : Vec Ideal S1x64 .f32) (v54 : Vec Ideal S64x64 .f32) (v57 : Vec Ideal S1x64 .f32) (v63 : Vec Ideal S64x1 .f32)
    (v66 : Vec Ideal S1x1 .f32) (g : Fin 64) :
    k3_pay2 (F := Ideal) v39 v40 v45 v48 v54 v57 v63 v66 (ix2 g (0 : Fin 1))
      = headOut (mlpG v39 v40) v45 v48 v54 v57 v63 v66 g := by
  unfold k3_pay2 headOut
  rw [addf_apply, matmul_out_apply, broadcastTo_1b_ab_apply]
  simp only [shapeCast_self]
  refine congrArg (· + v66 (ix2 (0 : Fin 1) (0 : Fin 1))) (Finset.sum_congr rfl fun k2 _ => ?_)
  refine congrArg (· * v63 (ix2 k2 (0 : Fin 1))) ?_
  unfold headH2
  rw [maximumf_apply, addf_apply, broadcast_apply, scalar_zero_f32, matmul_hid_apply, broadcastTo_1b_ab_apply]
  refine congrArg (max · (0 : EReal)) (congrArg (· + v57 (ix2 (0 : Fin 1) k2)) (Finset.sum_congr rfl fun k1 _ => ?_))
  refine congrArg (· * v54 (ix2 k1 k2)) ?_
  unfold headH1
  rw [maximumf_apply, addf_apply, broadcast_apply, matmul_hid_apply, broadcastTo_1b_ab_apply]
  refine congrArg (max · (0 : EReal)) (congrArg (· + v48 (ix2 (0 : Fin 1) k1)) (Finset.sum_congr rfl fun k0 _ => ?_))
  refine congrArg (· * v45 (ix2 k0 k1)) ?_
  unfold mlpG
  rw [divf_apply, broadcastTo_a1_ab_apply, maximumf_apply, broadcast_apply, scalar_one_f32]

end Cert.KernelIdeal.Val

end
-- ==== Proof.Val.Pool.lean ====
import proofs.«415824_j75625784148324_2_alg».proof.Proof.KI.Region3Data
import proofs.«415824_j75625784148324_2_alg».proof.Proof.Val.PoolPay
import Idealize.ShloMosaic.Lib.ValueIdx
import Idealize.ShloMosaic.Lib.Pipeline.Value

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)
open scoped BigOperators

def embY (H1 : Vec Ideal S100000x128 .f32) (W : Vec Ideal S128x64 .f32) (AGG : Vec Ideal S100000x64 .f32)
    (B : Vec Ideal S1x64 .f32) (n : Fin 100000) (f : Fin 64) : EReal :=
  (∑ k : Fin 128, H1 (ix2 n k) * W (ix2 k f)) + AGG (ix2 n f) + B (ix2 (0 : Fin 1) f)

def memb (BATCH : Vec Ideal S100000x1 .i32) (n : Fin 100000) (g : Fin 64) : EReal :=
  if BATCH (ix2 n (0 : Fin 1)) = BitVec.ofNat 32 g.val then 1 else 0

def poolSum (H1 : Vec Ideal S100000x128 .f32) (W : Vec Ideal S128x64 .f32) (AGG : Vec Ideal S100000x64 .f32)
    (B : Vec Ideal S1x64 .f32) (BATCH : Vec Ideal S100000x1 .i32) (g f : Fin 64) : EReal :=
  ∑ n : Fin 100000, memb BATCH n g * embY H1 W AGG B n f

def poolCnt (BATCH : Vec Ideal S100000x1 .i32) (g : Fin 64) : EReal :=
  ∑ n : Fin 100000, memb BATCH n g * 1

def poolMean (H1 : Vec Ideal S100000x128 .f32) (W : Vec Ideal S128x64 .f32) (AGG : Vec Ideal S100000x64 .f32)
    (B : Vec Ideal S1x64 .f32) (BATCH : Vec Ideal S100000x1 .i32) (g k : Fin 64) : EReal :=
  Ideal.div (poolSum H1 W AGG B BATCH g k) (max (poolCnt BATCH g) 1)

variable (V : (c : Dev nD) → (b : Ref sig .tc) → Buf (Elt Ideal) ((c : Thread nD τ).loc b))

namespace Pool

theorem N3v : cfg3.N = 10 := N_3

theorem idx3_rows : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_4.index t (0 : Fin 2) = t.val ∧ win3_4.index t (1 : Fin 2) = 0) :=
  (by decide +kernel : ∀ t : Fin grid3.N, _)

theorem idx3_whole : ∀ (t : Fin cfg3.N) (a : Fin 2),
    win3_2.index t a = 0 ∧ win3_3.index t a = 0 ∧ win3_5.index t a = 0 ∧ win3_6.index t a = 0 ∧ win3_7.index t a = 0
    ∧ win3_8.index t a = 0 ∧ win3_9.index t a = 0 ∧ win3_10.index t a = 0 ∧ win3_11.index t a = 0 :=
  (by decide +kernel : ∀ (t : Fin grid3.N) (a : Fin 2), _)

-- Row `r` of block `t` holds node `r + 10000 t`.
def node (t : Fin cfg3.N) (r : Fin 10000) : Fin 100000 :=
  ⟨r.val + 10000 * t.val, by have := t.isLt; have := N3v; omega⟩

section Reads
variable (c : Dev nD) (t : Fin cfg3.N)

theorem B0_apply (r : Fin 10000) (k : Fin 64) :
    (iblk3 V c 0 t : S10000x64.Idx → EReal) (ix2 r k)
      = (V c (Pipeline.arrRef spec3 0) : S100000x64.Idx → EReal) (ix2 (node t r) k) := by
  obtain ⟨⟨e0, e1⟩, -, -⟩ := idx3_rows t
  show (V c (Pipeline.arrRef spec3 0) : S100000x64.Idx → EReal) (((cfg3.win 0).blk t).view.emb (ix2 r k)) = _
  refine congrArg _ (Shape.idx_ext₂ ?_ ?_)
  · show win3_0.index t (0 : Fin 2) * 10000 + 1 * r.val = r.val + 10000 * t.val; omega
  · show win3_0.index t (1 : Fin 2) * 64 + 1 * k.val = k.val; omega

theorem B1_apply (r : Fin 10000) (k : Fin 128) :
    (iblk3 V c 1 t : S10000x128.Idx → EReal) (ix2 r k)
      = (V c (Pipeline.arrRef spec3 1) : S100000x128.Idx → EReal) (ix2 (node t r) k) := by
  obtain ⟨-, ⟨e0, e1⟩, -⟩ := idx3_rows t
  show (V c (Pipeline.arrRef spec3 1) : S100000x128.Idx → EReal) (((cfg3.win 1).blk t).view.emb (ix2 r k)) = _
  refine congrArg _ (Shape.idx_ext₂ ?_ ?_)
  · show win3_1.index t (0 : Fin 2) * 10000 + 1 * r.val = r.val + 10000 * t.val; omega
  · show win3_1.index t (1 : Fin 2) * 128 + 1 * k.val = k.val; omega

theorem B4_apply (r : Fin 10000) :
    (iblk3 V c 4 t : S10000x1.Idx → BitVec 32) (ix2 r (0 : Fin 1))
      = (V c (Pipeline.arrRef spec3 4) : S100000x1.Idx → BitVec 32) (ix2 (node t r) (0 : Fin 1)) := by
  obtain ⟨-, -, ⟨e0, e1⟩⟩ := idx3_rows t
  show (V c (Pipeline.arrRef spec3 4) : S100000x1.Idx → BitVec 32) (((cfg3.win 4).blk t).view.emb (ix2 r (0 : Fin 1))) = _
  refine congrArg _ (Shape.idx_ext₂ ?_ ?_)
  · show win3_4.index t (0 : Fin 2) * 10000 + 1 * r.val = r.val + 10000 * t.val; omega
  · show win3_4.index t (1 : Fin 2) * 1 + 1 * 0 = 0; omega

theorem B2_eq : (iblk3 V c 2 t : S128x64.Idx → EReal) = V c (Pipeline.arrRef spec3 2) :=
  funext fun j => congrArg (V c (Pipeline.arrRef spec3 2) : S128x64.Idx → EReal) (Shape.idx_ext₂
    (win3_2.rect_emb_val_of_index_zero t (0 : Fin 2) (idx3_whole t 0).1 j)
    (win3_2.rect_emb_val_of_index_zero t (1 : Fin 2) (idx3_whole t 1).1 j))

theorem B3_eq : (iblk3 V c 3 t : S1x64.Idx → EReal) = V c (Pipeline.arrRef spec3 3) :=
  funext fun j => congrArg (V c (Pipeline.arrRef spec3 3) : S1x64.Idx → EReal) (Shape.idx_ext₂
    (win3_3.rect_emb_val_of_index_zero t (0 : Fin 2) (idx3_whole t 0).2.1 j)
    (win3_3.rect_emb_val_of_index_zero t (1 : Fin 2) (idx3_whole t 1).2.1 j))

theorem B5_eq : (iblk3 V c 5 t : S64x64.Idx → EReal) = V c (Pipeline.arrRef spec3 5) :=
  funext fun j => congrArg (V c (Pipeline.arrRef spec3 5) : S64x64.Idx → EReal) (Shape.idx_ext₂
    (win3_5.rect_emb_val_of_index_zero t (0 : Fin 2) (idx3_whole t 0).2.2.1 j)
    (win3_5.rect_emb_val_of_index_zero t (1 : Fin 2) (idx3_whole t 1).2.2.1 j))

theorem B6_eq : (iblk3 V c 6 t : S1x64.Idx → EReal) = V c (Pipeline.arrRef spec3 6) :=
  funext fun j => congrArg (V c (Pipeline.arrRef spec3 6) : S1x64.Idx → EReal) (Shape.idx_ext₂
    (win3_6.rect_emb_val_of_index_zero t (0 : Fin 2) (idx3_whole t 0).2.2.2.1 j)
    (win3_6.rect_emb_val_of_index_zero t (1 : Fin 2) (idx3_whole t 1).2.2.2.1 j))

theorem B7_eq : (iblk3 V c 7 t : S64x64.Idx → EReal) = V c (Pipeline.arrRef spec3 7) :=
  funext fun j => congrArg (V c (Pipeline.arrRef spec3 7) : S64x64.Idx → EReal) (Shape.idx_ext₂
    (win3_7.rect_emb_val_of_index_zero t (0 : Fin 2) (idx3_whole t 0).2.2.2.2.1 j)
    (win3_7.rect_emb_val_of_index_zero t (1 : Fin 2) (idx3_whole t 1).2.2.2.2.1 j))

theorem B8_eq : (iblk3 V c 8 t : S1x64.Idx → EReal) = V c (Pipeline.arrRef spec3 8) :=
  funext fun j => congrArg (V c (Pipeline.arrRef spec3 8) : S1x64.Idx → EReal) (Shape.idx_ext₂
    (win3_8.rect_emb_val_of_index_zero t (0 : Fin 2) (idx3_whole t 0).2.2.2.2.2.1 j)
    (win3_8.rect_emb_val_of_index_zero t (1 : Fin 2) (idx3_whole t 1).2.2.2.2.2.1 j))

theorem B9_eq : (iblk3 V c 9 t : S64x1.Idx → EReal) = V c (Pipeline.arrRef spec3 9) :=
  funext fun j => congrArg (V c (Pipeline.arrRef spec3 9) : S64x1.Idx → EReal) (Shape.idx_ext₂
    (win3_9.rect_emb_val_of_index_zero t (0 : Fin 2) (idx3_whole t 0).2.2.2.2.2.2.1 j)
    (win3_9.rect_emb_val_of_index_zero t (1 : Fin 2) (idx3_whole t 1).2.2.2.2.2.2.1 j))

theorem B10_eq : (iblk3 V c 10 t : S1x1.Idx → EReal) = V c (Pipeline.arrRef spec3 10) :=
  funext fun j => congrArg (V c (Pipeline.arrRef spec3 10) : S1x1.Idx → EReal) (Shape.idx_ext₂
    (win3_10.rect_emb_val_of_index_zero t (0 : Fin 2) (idx3_whole t 0).2.2.2.2.2.2.2.1 j)
    (win3_10.rect_emb_val_of_index_zero t (1 : Fin 2) (idx3_whole t 1).2.2.2.2.2.2.2.1 j))

-- Through the output's window, whose block is the whole array, an index is itself.
theorem emb11 (j : S64x1.Idx) : ((cfg3.win 11).blk t).view.emb j = j :=
  Shape.idx_ext₂ (win3_11.rect_emb_val_of_index_zero t (0 : Fin 2) (idx3_whole t 0).2.2.2.2.2.2.2.2 j)
    (win3_11.rect_emb_val_of_index_zero t (1 : Fin 2) (idx3_whole t 1).2.2.2.2.2.2.2.2 j)

theorem cut11_eq_read (X : Vec Ideal S64x1 .f32) :
    (cfg3.win 11).cut (grid3.coords t) X = ((cfg3.win 11).blk t).view.read (Elt Ideal) X :=
  funext fun j => (congrArg X (emb11 t j)).symm

end Reads

section Sums
variable (c : Dev nD)

abbrev Y (n : Fin 100000) (f : Fin 64) : EReal := embY (V c (Pipeline.arrRef spec3 1)) (V c (Pipeline.arrRef spec3 2)) (V c (Pipeline.arrRef spec3 0)) (V c (Pipeline.arrRef spec3 3)) n f

abbrev oh (n : Fin 100000) (g : Fin 64) : EReal := memb (V c (Pipeline.arrRef spec3 4)) n g

def addS (g f : Fin 64) (t : ℕ) : EReal :=
  if h : t < cfg3.N then ∑ r : Fin 10000, oh V c (node ⟨t, h⟩ r) g * Y V c (node ⟨t, h⟩ r) f else 0

def addC (g : Fin 64) (t : ℕ) : EReal :=
  if h : t < cfg3.N then ∑ r : Fin 10000, oh V c (node ⟨t, h⟩ r) g * 1 else 0

theorem onehot_blk (t : Fin cfg3.N) (r : Fin 10000) (g : Fin 64) :
    k3_pay5 (F := Ideal) (iblk3 V c 4 t) (ix2 r g) = oh V c (node t r) g := by
  rw [k3_pay5_apply, B4_apply]; rfl

theorem sums_step (t : Fin cfg3.N) (acc : Vec Ideal S64x64 .f32) (g f : Fin 64) :
    k3_pay6 (F := Ideal) (iblk3 V c 1 t) (iblk3 V c 2 t) (iblk3 V c 0 t) (iblk3 V c 3 t) (iblk3 V c 4 t) acc (ix2 g f)
      = acc (ix2 g f) + addS V c g f t.val := by
  rw [k3_pay6_apply]
  refine congrArg (acc (ix2 g f) + ·) ?_
  unfold addS
  rw [dif_pos t.isLt]
  refine Finset.sum_congr rfl fun r _ => ?_
  rw [onehot_blk, B0_apply, B2_eq, B3_eq]
  simp only [B1_apply]
  rfl

theorem counts_step (t : Fin cfg3.N) (acc : Vec Ideal S64x1 .f32) (g : Fin 64) :
    k3_pay1 (F := Ideal) (k3_pay7 (F := Ideal) (iblk3 V c 4 t) acc) (ix2 g (0 : Fin 1))
      = acc (ix2 g (0 : Fin 1)) + addC V c g t.val := by
  rw [k3_pay1_pay7_apply]
  refine congrArg (acc (ix2 g (0 : Fin 1)) + ·) ?_
  unfold addC
  rw [dif_pos t.isLt]
  refine Finset.sum_congr rfl fun r _ => ?_
  rw [onehot_blk]

theorem sums_upto : ∀ (n : ℕ) (hn : n < cfg3.N) (g f : Fin 64),
    (scAt3 V c n hn).1 (ix2 g f) = ∑ t ∈ Finset.range (n + 1), addS V c g f t
  | 0, hn, g, f => by
    rw [scAt3_zero]; dsimp only
    refine (sums_step V c ⟨0, hn⟩ (k3_pay3 (F := Ideal)) g f).trans ?_
    rw [k3_pay3_apply, zero_add, Finset.sum_range_one]
  | n + 1, hn, g, f => by
    rw [scAt3_succ]; dsimp only
    refine (sums_step V c ⟨n + 1, hn⟩ (scAt3 V c n (Nat.lt_of_succ_lt hn)).1 g f).trans ?_
    rw [sums_upto n (Nat.lt_of_succ_lt hn) g f, Finset.sum_range_succ _ (n + 1)]

theorem counts_upto : ∀ (n : ℕ) (hn : n < cfg3.N) (g : Fin 64),
    (scAt3 V c n hn).2 (ix2 g (0 : Fin 1)) = ∑ t ∈ Finset.range (n + 1), addC V c g t
  | 0, hn, g => by
    rw [scAt3_zero]; dsimp only
    refine (counts_step V c ⟨0, hn⟩ (k3_pay4 (F := Ideal)) g).trans ?_
    rw [k3_pay4_apply, zero_add, Finset.sum_range_one]
  | n + 1, hn, g => by
    rw [scAt3_succ]; dsimp only
    refine (counts_step V c ⟨n + 1, hn⟩ (scAt3 V c n (Nat.lt_of_succ_lt hn)).2 g).trans ?_
    rw [counts_upto n (Nat.lt_of_succ_lt hn) g, Finset.sum_range_succ _ (n + 1)]

-- Ten blocks of ten thousand rows are the hundred thousand nodes, by quotient and remainder.
theorem sum_blocks {M : Type*} [AddCommMonoid M] (Fn : Fin 100000 → M) :
    ∑ t ∈ Finset.range 10, (if h : t < cfg3.N then ∑ r : Fin 10000, Fn (node ⟨t, h⟩ r) else 0) = ∑ n : Fin 100000, Fn n := by
  rw [Finset.sum_range, ← Equiv.sum_comp (finProdFinEquiv : Fin 10 × Fin 10000 ≃ Fin 100000) Fn, Fintype.sum_prod_type]
  refine Finset.sum_congr rfl fun i _ => ?_
  rw [dif_pos (by have := i.isLt; have := N3v; omega)]
  rfl

theorem lt9 : 9 < cfg3.N := by have := N3v; omega

-- After the last point the quotient of the accumulators is the pooled mean.
theorem mlpG_pool :
    mlpG (scAt3 V c 9 lt9).1 (scAt3 V c 9 lt9).2 = poolMean (V c (Pipeline.arrRef spec3 1)) (V c (Pipeline.arrRef spec3 2)) (V c (Pipeline.arrRef spec3 0)) (V c (Pipeline.arrRef spec3 3)) (V c (Pipeline.arrRef spec3 4)) := by
  funext g k
  unfold mlpG poolMean
  rw [sums_upto, counts_upto]
  exact congrArg₂ (fun s n => Ideal.div s (max n 1)) (sum_blocks fun n => oh V c n g * Y V c n k)
    (sum_blocks fun n => oh V c n g * 1)

end Sums

section Out
variable (c : Dev nD)

def tLast : Fin cfg3.N := ⟨9, lt9⟩

theorem cover11 (i : S64x1.Idx) : ∃ t : Fin cfg3.N, (cfg3.win 11).flush t = true ∧ i ∈ ((cfg3.win 11).blk t).view.set := by
  have h := ((cfg3.win 11).blk tLast).view.emb_mem_set i
  rw [emb11] at h
  exact ⟨tLast, (flush3_11 tLast).mpr rfl, h⟩

theorem flushed11_eq (t : Fin cfg3.N) (hf : (cfg3.win 11).flush t = true) :
    (dat3 V c).flushed 11 t = ((cfg3.win 11).blk t).view.read (Elt Ideal) (out3_11 V c tLast) := by
  obtain rfl : t = tLast := Fin.ext (by
    have h1 := (flush3_11 t).mp hf; have h2 := t.isLt; have h3 := N3v
    show t.val = 9; omega)
  show (cfg3.win 11).cut (grid3.coords tLast) ((dat3 V c).after 11 tLast) = _
  rw [after3_11]
  exact cut11_eq_read tLast (out3_11 V c tLast)

theorem arr11_eq : (dat3 V c).arrAt 11 cfg3.N = out3_11 V c tLast :=
  (dat3 V c).arrAt_eq_of_cover 11 (out3_11 V c tLast) (fun t hf => flushed11_eq V c t hf) cover11

-- The last point's result is the head on the pooled means.
theorem out11_apply (g : Fin 64) :
    out3_11 V c tLast (ix2 g (0 : Fin 1))
      = headOut (poolMean (V c (Pipeline.arrRef spec3 1)) (V c (Pipeline.arrRef spec3 2)) (V c (Pipeline.arrRef spec3 0))
            (V c (Pipeline.arrRef spec3 3)) (V c (Pipeline.arrRef spec3 4)))
          (V c (Pipeline.arrRef spec3 5)) (V c (Pipeline.arrRef spec3 6)) (V c (Pipeline.arrRef spec3 7))
          (V c (Pipeline.arrRef spec3 8)) (V c (Pipeline.arrRef spec3 9)) (V c (Pipeline.arrRef spec3 10)) g :=
  (k3_pay2_apply (scAt3 V c 9 lt9).1 (scAt3 V c 9 lt9).2 (iblk3 V c 5 tLast) (iblk3 V c 6 tLast)
    (iblk3 V c 7 tLast) (iblk3 V c 8 tLast) (iblk3 V c 9 tLast) (iblk3 V c 10 tLast) g).trans
    (congrFun (congr (congr (congr (congr (congr (congr (congrArg headOut (mlpG_pool V c)) (B5_eq V c tLast))
      (B6_eq V c tLast)) (B7_eq V c tLast)) (B8_eq V c tLast)) (B9_eq V c tLast)) (B10_eq V c tLast)) g)

end Out

end Pool

-- After the run the output holds, for graph `g`, the value head on the pooled means of the arrays the region finds.
theorem pool_apply (c : Dev nD) (g : Fin 64) :
    ((dat3 V c).arrAt 11 cfg3.N : S64x1.Idx → EReal) (ix2 g (0 : Fin 1))
      = headOut (poolMean (V c (Pipeline.arrRef spec3 1)) (V c (Pipeline.arrRef spec3 2)) (V c (Pipeline.arrRef spec3 0))
            (V c (Pipeline.arrRef spec3 3)) (V c (Pipeline.arrRef spec3 4)))
          (V c (Pipeline.arrRef spec3 5)) (V c (Pipeline.arrRef spec3 6)) (V c (Pipeline.arrRef spec3 7))
          (V c (Pipeline.arrRef spec3 8)) (V c (Pipeline.arrRef spec3 9)) (V c (Pipeline.arrRef spec3 10)) g := by
  rw [Pool.arr11_eq]
  exact Pool.out11_apply V c g

end Cert.KernelIdeal.Val

end
-- ==== Proof.Val.Final.lean ====
import proofs.«415824_j75625784148324_2_alg».proof.Proof.KI.ChainB
import proofs.«415824_j75625784148324_2_alg».proof.Proof.Gen.KernelIdeal.Regions
import proofs.«415824_j75625784148324_2_alg».proof.Proof.Gen.ReferenceIdeal.Read
import proofs.«415824_j75625784148324_2_alg».proof.Proof.LibIndexing
import proofs.«415824_j75625784148324_2_alg».proof.Proof.Val.Layer2Algebra
import proofs.«415824_j75625784148324_2_alg».proof.Proof.Val.Pool
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section
open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem

theorem word_eq_graph_iff (b : BitVec 32) (g : Fin 64) : b = BitVec.ofNat 32 g.val ↔ b.toInt = (g.val : Int) := by
  have hn : (BitVec.ofNat 32 g.val).toNat = g.val := by rw [BitVec.toNat_ofNat]; have := g.isLt; omega
  have h : (BitVec.ofNat 32 g.val).toInt = (g.val : Int) := by
    rw [BitVec.toInt_eq_toNat_of_lt (by rw [hn]; have := g.isLt; omega), hn]
  rw [← h, BitVec.toInt_inj]

-- On the extended reals 0 * y = 0 and 1 * y = y for every y, so an indicator-weighted sum is the sum over the members.
theorem sum_indicator_mul {ι : Type*} [Fintype ι] (p : ι → Prop) [DecidablePred p] (y : ι → EReal) :
    ∑ n, (if p n then (1 : EReal) else 0) * y n = ∑ n ∈ Finset.univ.filter p, y n := by
  rw [Finset.sum_filter]
  refine Finset.sum_congr rfl fun n _ => ?_
  split_ifs <;> simp

section Kernel

variable (m : (ℓ : Loc nD τ sig) → Buf (Elt Ideal) ℓ) (c : Dev nD)

theorem W6_eq_W1 (r : Ref sig .tc) (h1 : r ∉ hostOps1_W := by decide) (h3 : r ∉ hostOps3_W := by decide)
    (hs0 : ∀ w, Pipeline.arrRef spec0 w ≠ r := by decide) (hs1 : ∀ w, Pipeline.arrRef spec1 w ≠ r := by decide)
    (hs2 : ∀ w, Pipeline.arrRef spec2 w ≠ r := by decide) :
    W6 m c (Proc.devRef .tc r) = W1 m c (Proc.devRef .tc r) :=
  (StableHlo.after_of_writes_sub hostOps3 _ hostOps3_writes h3).trans <|
  (W5_of_ne m c r hs2).trans <| (W4_of_ne m c r hs1).trans <|
  (StableHlo.after_of_writes_sub hostOps1 _ hostOps1_writes h1).trans <| W2_of_ne m c r hs0

theorem W5_eq_W0 (r : Ref sig .tc) (h0 : r ∉ hostOps0_W := by decide) (h1 : r ∉ hostOps1_W := by decide)
    (hs0 : ∀ w, Pipeline.arrRef spec0 w ≠ r := by decide) (hs1 : ∀ w, Pipeline.arrRef spec1 w ≠ r := by decide)
    (hs2 : ∀ w, Pipeline.arrRef spec2 w ≠ r := by decide) :
    W5 m c (Proc.devRef .tc r) = m (c, Proc.devRef .tc r) :=
  (W5_of_ne m c r hs2).trans <| (W4_of_ne m c r hs1).trans <|
  (StableHlo.after_of_writes_sub hostOps1 _ hostOps1_writes h1).trans <| (W2_of_ne m c r hs0).trans <|
  StableHlo.after_of_writes_sub hostOps0 _ hostOps0_writes h0

theorem shapeCast_a_a1_apply {α : Type} {a : ℕ} (x : (⟨1, ![a]⟩ : Shape).Idx → α) (h : (⟨1, ![a]⟩ : Shape).ShapeCasts ⟨2, ![a, 1]⟩)
    (i : Fin a) : shapeCast ⟨2, ![a, 1]⟩ x h (ix2 i (0 : Fin 1)) = x (ix1 i) :=
  shapeCast_apply x h _ _ (by
    rw [Shape.rowMajor_val_two, Shape.rowMajor_val_one]
    show i.val = i.val * 1 + 0
    rw [Nat.mul_one, Nat.add_zero])

theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

theorem W8_v0 : W8 m c (Proc.devRef .tc main_v0) = shapeCast S64 ((dat3 (V6 m) c).arrAt 11 cfg3.N : S64x1.Idx → EReal) shapeCasts_S64x1_S64 := by
  show StableHlo.after hostOps4 _ (Proc.devRef .tc main_v0) = _
  after_results
  exact congrArg (fun y : S64x1.Idx → EReal => shapeCast S64 y shapeCasts_S64x1_S64) (W7_arr m c 11)

theorem entry_batch (x2 : (⟨ReferenceIdeal.S100000, .i32⟩ : BufTy).Contents (Elt Ideal))
    (hx2 : m ((c.tc : Thread nD τ).loc main_arg2) = x2) :
    (Hand.V6 m c (Pipeline.arrRef spec3 4) : Vec Ideal S100000x1 .i32) = shapeCast S100000x1 (x2 : S100000.Idx → BitVec 32) shapeCasts_S100000_S100000x1 := by
  subst hx2
  show StableHlo.after hostOps3 _ (Proc.devRef .tc main_call0_v62) = _
  after_results
  rw [W5_eq_W0 m c main_arg2]
  rfl

theorem entry_w1 (x12 : (⟨ReferenceIdeal.S64x64, .f32⟩ : BufTy).Contents (Elt Ideal))
    (hx12 : m ((c.tc : Thread nD τ).loc main_arg12) = x12) :
    (Hand.V6 m c (Pipeline.arrRef spec3 5) : Vec Ideal S64x64 .f32) = transpose S64x64 [1, 0] (x12 : S64x64.Idx → EReal) transposes_S64x64_S64x64_1_0 := by
  subst hx12
  refine (W6_eq_W1 m c main_call0_v18).trans ?_
  show StableHlo.after hostOps0 _ (Proc.devRef .tc main_call0_v18) = _
  after_results
  rfl

theorem entry_b1 (x13 : (⟨ReferenceIdeal.S64, .f32⟩ : BufTy).Contents (Elt Ideal))
    (hx13 : m ((c.tc : Thread nD τ).loc main_arg13) = x13) :
    (Hand.V6 m c (Pipeline.arrRef spec3 6) : Vec Ideal S1x64 .f32) = shapeCast S1x64 (x13 : S64.Idx → EReal) shapeCasts_S64_S1x64 := by
  subst hx13
  show StableHlo.after hostOps3 _ (Proc.devRef .tc main_call0_v64) = _
  after_results
  rw [W5_eq_W0 m c main_arg13]
  rfl

theorem entry_w2 (x14 : (⟨ReferenceIdeal.S64x64, .f32⟩ : BufTy).Contents (Elt Ideal))
    (hx14 : m ((c.tc : Thread nD τ).loc main_arg14) = x14) :
    (Hand.V6 m c (Pipeline.arrRef spec3 7) : Vec Ideal S64x64 .f32) = transpose S64x64 [1, 0] (x14 : S64x64.Idx → EReal) transposes_S64x64_S64x64_1_0 := by
  subst hx14
  refine (W6_eq_W1 m c main_call0_v19).trans ?_
  show StableHlo.after hostOps0 _ (Proc.devRef .tc main_call0_v19) = _
  after_results
  rfl

theorem entry_b2 (x15 : (⟨ReferenceIdeal.S64, .f32⟩ : BufTy).Contents (Elt Ideal))
    (hx15 : m ((c.tc : Thread nD τ).loc main_arg15) = x15) :
    (Hand.V6 m c (Pipeline.arrRef spec3 8) : Vec Ideal S1x64 .f32) = shapeCast S1x64 (x15 : S64.Idx → EReal) shapeCasts_S64_S1x64 := by
  subst hx15
  show StableHlo.after hostOps3 _ (Proc.devRef .tc main_call0_v65) = _
  after_results
  rw [W5_eq_W0 m c main_arg15]
  rfl

theorem entry_w3 (x16 : (⟨ReferenceIdeal.S1x64, .f32⟩ : BufTy).Contents (Elt Ideal))
    (hx16 : m ((c.tc : Thread nD τ).loc main_arg16) = x16) :
    (Hand.V6 m c (Pipeline.arrRef spec3 9) : Vec Ideal S64x1 .f32) = transpose S64x1 [1, 0] (x16 : S1x64.Idx → EReal) transposes_S1x64_S64x1_1_0 := by
  subst hx16
  refine (W6_eq_W1 m c main_call0_v20).trans ?_
  show StableHlo.after hostOps0 _ (Proc.devRef .tc main_call0_v20) = _
  after_results
  rfl

theorem entry_b3 (x17 : (⟨ReferenceIdeal.S1, .f32⟩ : BufTy).Contents (Elt Ideal))
    (hx17 : m ((c.tc : Thread nD τ).loc main_arg17) = x17) :
    (Hand.V6 m c (Pipeline.arrRef spec3 10) : Vec Ideal S1x1 .f32) = shapeCast S1x1 (x17 : S1.Idx → EReal) shapeCasts_S1_S1x1 := by
  subst hx17
  show StableHlo.after hostOps3 _ (Proc.devRef .tc main_call0_v66) = _
  after_results
  rw [W5_eq_W0 m c main_arg17]
  rfl

theorem result_apply (g : Fin 64) :
    (W8 m c (Proc.devRef .tc main_v0) : S64.Idx → EReal) (ix1 g)
      = headOut (poolMean (Hand.V6 m c (Pipeline.arrRef spec3 1)) (Hand.V6 m c (Pipeline.arrRef spec3 2))
            (Hand.V6 m c (Pipeline.arrRef spec3 0)) (Hand.V6 m c (Pipeline.arrRef spec3 3)) (Hand.V6 m c (Pipeline.arrRef spec3 4)))
          (Hand.V6 m c (Pipeline.arrRef spec3 5)) (Hand.V6 m c (Pipeline.arrRef spec3 6)) (Hand.V6 m c (Pipeline.arrRef spec3 7))
          (Hand.V6 m c (Pipeline.arrRef spec3 8)) (Hand.V6 m c (Pipeline.arrRef spec3 9)) (Hand.V6 m c (Pipeline.arrRef spec3 10)) g := by
  rw [W8_v0, shapeCast_a1_a_apply]
  exact pool_apply (Hand.V6 m) c g

end Kernel

section Reference

open Cert.ReferenceIdeal.Read

variable (x0 : (⟨ReferenceIdeal.S100000x128, .f32⟩ : BufTy).Contents (Elt Ideal)) (x1 : (⟨ReferenceIdeal.S2x1600000, .i32⟩ : BufTy).Contents (Elt Ideal))
  (x2 : (⟨ReferenceIdeal.S100000, .i32⟩ : BufTy).Contents (Elt Ideal))
  (x3 x4 : (⟨ReferenceIdeal.S128x128, .f32⟩ : BufTy).Contents (Elt Ideal)) (x5 : (⟨ReferenceIdeal.S128, .f32⟩ : BufTy).Contents (Elt Ideal))
  (x6 x7 : (⟨ReferenceIdeal.S128x128, .f32⟩ : BufTy).Contents (Elt Ideal)) (x8 : (⟨ReferenceIdeal.S128, .f32⟩ : BufTy).Contents (Elt Ideal))
  (x9 x10 : (⟨ReferenceIdeal.S64x128, .f32⟩ : BufTy).Contents (Elt Ideal)) (x11 : (⟨ReferenceIdeal.S64, .f32⟩ : BufTy).Contents (Elt Ideal))
  (x12 : (⟨ReferenceIdeal.S64x64, .f32⟩ : BufTy).Contents (Elt Ideal)) (x13 : (⟨ReferenceIdeal.S64, .f32⟩ : BufTy).Contents (Elt Ideal))
  (x14 : (⟨ReferenceIdeal.S64x64, .f32⟩ : BufTy).Contents (Elt Ideal)) (x15 : (⟨ReferenceIdeal.S64, .f32⟩ : BufTy).Contents (Elt Ideal))
  (x16 : (⟨ReferenceIdeal.S1x64, .f32⟩ : BufTy).Contents (Elt Ideal)) (x17 : (⟨ReferenceIdeal.S1, .f32⟩ : BufTy).Contents (Elt Ideal))

theorem ref_count (g : Fin 64) :
    val_main_v90 (F := Ideal) x2 (ix2 g (0 : Fin 1))
      = 0 + ∑ n ∈ Finset.univ.filter (fun n : Fin 100000 => BitVec.toInt (x2 (ix1 n)) = (g.val : Int)), (1 : EReal) := by
  unfold val_main_v90
  have e89 : ∀ n : Fin 100000, val_main_v89 (F := Ideal) x2 (ix2 n (0 : Fin 1)) = x2 (ix1 n) := fun n => by
    rw [val_main_v89_apply]; exact congrArg x2 ((eq_ix1 _).trans rfl)
  have e88 : ∀ i, val_main_v88 (F := Ideal) i = (0 : EReal) := fun i => by
    rw [val_main_v88_apply, val_main_cst_18_apply]; exact Ideal.ofBits_zero_f32
  have e87 : ∀ i, val_main_v87 (F := Ideal) i = (1 : EReal) := fun i => by
    rw [val_main_v87_apply, val_main_cst_17_apply]; exact Ideal.ofBits_one_f32
  generalize val_main_v89 (F := Ideal) x2 = y89 at e89 ⊢
  generalize val_main_v88 (F := Ideal) = y88 at e88 ⊢
  generalize val_main_v87 (F := Ideal) = y87 at e87 ⊢
  refine (LibIndexing.scatterAdd_rows_apply (N := 64) (D := 1) (E := 100000)
    ReferenceIdeal.Facts₀.scatter_S64x1_S100000x1_S100000x1_1_0_0_1_wf y89 y88 y87 g 0).trans ?_
  rw [e88]
  refine congrArg (0 + ·) (Finset.sum_congr ?_ fun n _ => e87 _)
  ext n; simp only [Finset.mem_filter, Finset.mem_univ, true_and]; rw [e89]

local notation "R83" => val_main_v83 (F := Ideal) x0 x1 x3 x4 x5 x6 x7 x8 x9 x10 x11
local notation "R86" => val_main_v86 (F := Ideal) x0 x1 x2 x3 x4 x5 x6 x7 x8 x9 x10 x11
local notation "R94" => val_main_v94 (F := Ideal) x0 x1 x2 x3 x4 x5 x6 x7 x8 x9 x10 x11
local notation "R100" => val_main_v100 (F := Ideal) x0 x1 x2 x3 x4 x5 x6 x7 x8 x9 x10 x11 x12 x13
local notation "R106" => val_main_v106 (F := Ideal) x0 x1 x2 x3 x4 x5 x6 x7 x8 x9 x10 x11 x12 x13 x14 x15
local notation "R112" => val_main_v112 (F := Ideal) x0 x1 x2 x3 x4 x5 x6 x7 x8 x9 x10 x11 x12 x13 x14 x15 x16 x17

theorem ref_sums (g k : Fin 64) :
    R86 (ix2 g k)
      = 0 + ∑ n ∈ Finset.univ.filter (fun n : Fin 100000 => BitVec.toInt (x2 (ix1 n)) = (g.val : Int)), R83 (ix2 n k) := by
  unfold val_main_v86
  have e85 : ∀ n : Fin 100000, val_main_v85 (F := Ideal) x2 (ix2 n (0 : Fin 1)) = x2 (ix1 n) := fun n => by
    rw [val_main_v85_apply]; exact congrArg x2 ((eq_ix1 _).trans rfl)
  have e84 : ∀ i, val_main_v84 (F := Ideal) i = (0 : EReal) := fun i => by
    rw [val_main_v84_apply, val_main_cst_16_apply]; exact Ideal.ofBits_zero_f32
  generalize val_main_v85 (F := Ideal) x2 = y85 at e85 ⊢
  generalize val_main_v84 (F := Ideal) = y84 at e84 ⊢
  generalize R83 = y83
  refine (LibIndexing.scatterAdd_rows_apply (N := 64) (D := 64) (E := 100000)
    ReferenceIdeal.Facts₀.scatter_S64x64_S100000x1_S100000x64_1_0_0_1_wf y85 y84 y83 g k).trans ?_
  rw [e84]
  refine congrArg (0 + ·) (Finset.sum_congr ?_ fun n _ => rfl)
  ext n; simp only [Finset.mem_filter, Finset.mem_univ, true_and]; rw [e85]

theorem ref_mean (g k : Fin 64) :
    R94 (ix2 g k) = Ideal.div (R86 (ix2 g k)) (max (val_main_v90 (F := Ideal) x2 (ix2 g (0 : Fin 1))) 1) := by
  rw [val_main_v94_apply, val_main_v93_apply, val_main_v92_apply, val_main_v91_apply, val_main_cst_19_apply]
  have e : idx_main_v93 (ix2 g k) = ix2 g (0 : Fin 1) := (eq_ix2 _).trans rfl
  rw [e]
  show Ideal.div _ (max _ (Ideal.ofBits .f32 0x3F800000#32)) = _
  rw [Ideal.ofBits_one_f32]

theorem ref_h1 (g j : Fin 64) :
    R100 (ix2 g j) = max ((∑ k : Fin 64, R94 (ix2 g k) * x12 (ix2 j k)) + x13 (ix1 j)) 0 := by
  rw [val_main_v100_apply, val_main_v99_apply, val_main_v96_apply, val_main_v98_apply, val_main_v97_apply,
    val_main_call2_v0_apply, val_main_call2_cst_apply]
  have e1 : idx_main_v97 (idx_main_v98 (ix2 g j)) = ix1 j := (eq_ix1 _).trans rfl
  rw [e1]
  show max ((∑ k : Fin 64, _) + _) (Ideal.ofBits .f32 0x00000000#32) = _
  rw [Ideal.ofBits_zero_f32]
  refine congrArg (max · (0 : EReal)) (congrArg (· + x13 (ix1 j)) (Finset.sum_congr rfl fun k _ => ?_))
  rw [val_main_v95_apply]
  have el : lidx_main_v96 (ix2 g j) k = ix2 g k := (eq_ix2 _).trans rfl
  have er : idx_main_v95 (ridx_main_v96 (ix2 g j) k) = ix2 j k := (eq_ix2 _).trans rfl
  rw [el, er]

theorem ref_h2 (g j : Fin 64) :
    R106 (ix2 g j) = max ((∑ k : Fin 64, R100 (ix2 g k) * x14 (ix2 j k)) + x15 (ix1 j)) 0 := by
  rw [val_main_v106_apply, val_main_v105_apply, val_main_v102_apply, val_main_v104_apply, val_main_v103_apply,
    val_main_call3_v0_apply, val_main_call3_cst_apply]
  have e1 : idx_main_v103 (idx_main_v104 (ix2 g j)) = ix1 j := (eq_ix1 _).trans rfl
  rw [e1]
  show max ((∑ k : Fin 64, _) + _) (Ideal.ofBits .f32 0x00000000#32) = _
  rw [Ideal.ofBits_zero_f32]
  refine congrArg (max · (0 : EReal)) (congrArg (· + x15 (ix1 j)) (Finset.sum_congr rfl fun k _ => ?_))
  rw [val_main_v101_apply]
  have el : lidx_main_v102 (ix2 g j) k = ix2 g k := (eq_ix2 _).trans rfl
  have er : idx_main_v101 (ridx_main_v102 (ix2 g j) k) = ix2 j k := (eq_ix2 _).trans rfl
  rw [el, er]

theorem ref_out (g : Fin 64) :
    R112 (ix1 g) = (∑ k : Fin 64, R106 (ix2 g k) * x16 (ix2 (0 : Fin 1) k)) + x17 (ix1 (0 : Fin 1)) := by
  rw [val_main_v112_apply]
  have e0 : idx_main_v112 (ix1 g) = ix2 g (0 : Fin 1) :=
    funext fun a => match a with | ⟨0, _⟩ => Fin.ext (Nat.div_one _) | ⟨1, _⟩ => rfl
  rw [e0, val_main_v111_apply, val_main_v108_apply, val_main_v110_apply, val_main_v109_apply]
  have e1 : idx_main_v109 (idx_main_v110 (ix2 g (0 : Fin 1))) = ix1 (0 : Fin 1) := (eq_ix1 _).trans rfl
  rw [e1]
  show (∑ k : Fin 64, _) + _ = _
  refine congrArg (· + x17 (ix1 (0 : Fin 1))) (Finset.sum_congr rfl fun k _ => ?_)
  rw [val_main_v107_apply]
  have el : lidx_main_v108 (ix2 g (0 : Fin 1)) k = ix2 g k := (eq_ix2 _).trans rfl
  have er : idx_main_v107 (ridx_main_v108 (ix2 g (0 : Fin 1)) k) = ix2 (0 : Fin 1) k := (eq_ix2 _).trans rfl
  rw [el, er]

-- The pooled sum and count are indicator sums over the graph's nodes; the three dense layers then agree term by term.
theorem head_eq
    (H1 : Vec Ideal S100000x128 .f32) (W : Vec Ideal S128x64 .f32) (AGG : Vec Ideal S100000x64 .f32) (B : Vec Ideal S1x64 .f32)
    (BATCH : Vec Ideal S100000x1 .i32)
    (A5 : Vec Ideal S64x64 .f32) (A6 : Vec Ideal S1x64 .f32) (A7 : Vec Ideal S64x64 .f32) (A8 : Vec Ideal S1x64 .f32)
    (A9 : Vec Ideal S64x1 .f32) (A10 : Vec Ideal S1x1 .f32)
    (hb : BATCH = shapeCast S100000x1 (x2 : S100000.Idx → BitVec 32) shapeCasts_S100000_S100000x1)
    (hY : ∀ (n : Fin 100000) (f : Fin 64), embY H1 W AGG B n f = val_main_v83 (F := Ideal) x0 x1 x3 x4 x5 x6 x7 x8 x9 x10 x11 (ix2 n f))
    (h5 : A5 = transpose S64x64 [1, 0] (x12 : S64x64.Idx → EReal) transposes_S64x64_S64x64_1_0)
    (h6 : A6 = shapeCast S1x64 (x13 : S64.Idx → EReal) shapeCasts_S64_S1x64)
    (h7 : A7 = transpose S64x64 [1, 0] (x14 : S64x64.Idx → EReal) transposes_S64x64_S64x64_1_0)
    (h8 : A8 = shapeCast S1x64 (x15 : S64.Idx → EReal) shapeCasts_S64_S1x64)
    (h9 : A9 = transpose S64x1 [1, 0] (x16 : S1x64.Idx → EReal) transposes_S1x64_S64x1_1_0)
    (h10 : A10 = shapeCast S1x1 (x17 : S1.Idx → EReal) shapeCasts_S1_S1x1)
    (g : Fin 64) :
    headOut (poolMean H1 W AGG B BATCH) A5 A6 A7 A8 A9 A10 g
      = val_main_v112 (F := Ideal) x0 x1 x2 x3 x4 x5 x6 x7 x8 x9 x10 x11 x12 x13 x14 x15 x16 x17 (ix1 g) := by
  have hfilt : Finset.univ.filter (fun n : Fin 100000 => BATCH (ix2 n (0 : Fin 1)) = BitVec.ofNat 32 g.val)
      = Finset.univ.filter (fun n : Fin 100000 => BitVec.toInt (x2 (ix1 n)) = (g.val : Int)) := by
    ext n; simp only [Finset.mem_filter, Finset.mem_univ, true_and]; rw [hb, shapeCast_a_a1_apply, word_eq_graph_iff]
  have hG : ∀ k : Fin 64, poolMean H1 W AGG B BATCH g k
      = val_main_v94 (F := Ideal) x0 x1 x2 x3 x4 x5 x6 x7 x8 x9 x10 x11 (ix2 g k) := fun k => by
    unfold poolMean poolSum poolCnt memb
    rw [sum_indicator_mul, sum_indicator_mul, hfilt, Finset.sum_congr rfl fun n _ => hY n k,
      ref_mean, ref_sums, ref_count, zero_add, zero_add]
  have hH1 : ∀ j : Fin 64, headH1 (poolMean H1 W AGG B BATCH) A5 A6 g j
      = val_main_v100 (F := Ideal) x0 x1 x2 x3 x4 x5 x6 x7 x8 x9 x10 x11 x12 x13 (ix2 g j) := fun j => by
    unfold headH1
    rw [ref_h1, h6, shapeCast_a_1a_apply]
    refine congrArg (max · (0 : EReal)) (congrArg (· + x13 (ix1 j)) (Finset.sum_congr rfl fun k _ => ?_))
    rw [hG, h5, transpose_ix2_apply]
  have hH2 : ∀ j : Fin 64, headH2 (poolMean H1 W AGG B BATCH) A5 A6 A7 A8 g j
      = val_main_v106 (F := Ideal) x0 x1 x2 x3 x4 x5 x6 x7 x8 x9 x10 x11 x12 x13 x14 x15 (ix2 g j) := fun j => by
    unfold headH2
    rw [ref_h2, h8, shapeCast_a_1a_apply]
    refine congrArg (max · (0 : EReal)) (congrArg (· + x15 (ix1 j)) (Finset.sum_congr rfl fun k _ => ?_))
    rw [hH1, h7, transpose_ix2_apply]
  unfold headOut
  rw [ref_out, h10, shapeCast_a_1a_apply]
  refine congrArg (· + x17 (ix1 (0 : Fin 1))) (Finset.sum_congr rfl fun k _ => ?_)
  rw [hH2, h9, transpose_ix2_apply]

variable (m : (ℓ : Loc nD τ sig) → Buf (Elt Ideal) ℓ) (c : Dev nD)

theorem result_eq
    (hx2 : m ((c.tc : Thread nD τ).loc main_arg2) = x2)
    (hx12 : m ((c.tc : Thread nD τ).loc main_arg12) = x12) (hx13 : m ((c.tc : Thread nD τ).loc main_arg13) = x13)
    (hx14 : m ((c.tc : Thread nD τ).loc main_arg14) = x14) (hx15 : m ((c.tc : Thread nD τ).loc main_arg15) = x15)
    (hx16 : m ((c.tc : Thread nD τ).loc main_arg16) = x16) (hx17 : m ((c.tc : Thread nD τ).loc main_arg17) = x17)
    (hemb : ∀ (n : Fin 100000) (f : Fin 64),
      embK (W6 m c (Proc.devRef .tc main_call0_v48)) (W6 m c (Proc.devRef .tc main_call0_v17))
          (W6 m c (Proc.devRef .tc main_call0_v61)) (W6 m c (Proc.devRef .tc main_call0_v63)) n f
        = val_main_v83 (F := Ideal) x0 x1 x3 x4 x5 x6 x7 x8 x9 x10 x11 (ix2 n f)) :
    W8 (F := Ideal) m c (Proc.devRef .tc main_v0)
      = val_main_v112 (F := Ideal) x0 x1 x2 x3 x4 x5 x6 x7 x8 x9 x10 x11 x12 x13 x14 x15 x16 x17 := by
  funext i
  obtain ⟨g, rfl⟩ : ∃ g : Fin 64, i = ix1 g := ⟨i 0, eq_ix1 i⟩
  rw [result_apply m c g]
  refine head_eq x0 x1 x2 x3 x4 x5 x6 x7 x8 x9 x10 x11 x12 x13 x14 x15 x16 x17 _ _ _ _ _ _ _ _ _ _ _
    (entry_batch m c x2 hx2) ?_ (entry_w1 m c x12 hx12) (entry_b1 m c x13 hx13)
    (entry_w2 m c x14 hx14) (entry_b2 m c x15 hx15) (entry_w3 m c x16 hx16) (entry_b3 m c x17 hx17) g
  exact hemb

end Reference

end Cert.KernelIdeal.Val

end
-- ==== Proof.Val.Result.lean ====
import proofs.«415824_j75625784148324_2_alg».proof.Proof.Val.FinitePre
import proofs.«415824_j75625784148324_2_alg».proof.Proof.Val.Finite
import proofs.«415824_j75625784148324_2_alg».proof.Proof.Val.Layers01
import proofs.«415824_j75625784148324_2_alg».proof.Proof.Val.Layer2
import proofs.«415824_j75625784148324_2_alg».proof.Proof.Val.Final

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open scoped BigOperators

theorem kernel_result (m : (ℓ : Loc nD τ sig) → Buf (Elt Ideal) ℓ) (hpre : Cert.Pre_KernelIdeal m) (c : Dev nD)
    (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S128x128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal)) (x9 : (⟨Cert.ReferenceIdeal.S64x128, .f32⟩ : BufTy).Contents (Elt Ideal)) (x10 : (⟨Cert.ReferenceIdeal.S64x128, .f32⟩ : BufTy).Contents (Elt Ideal)) (x11 : (⟨Cert.ReferenceIdeal.S64, .f32⟩ : BufTy).Contents (Elt Ideal)) (x12 : (⟨Cert.ReferenceIdeal.S64x64, .f32⟩ : BufTy).Contents (Elt Ideal)) (x13 : (⟨Cert.ReferenceIdeal.S64, .f32⟩ : BufTy).Contents (Elt Ideal)) (x14 : (⟨Cert.ReferenceIdeal.S64x64, .f32⟩ : BufTy).Contents (Elt Ideal)) (x15 : (⟨Cert.ReferenceIdeal.S64, .f32⟩ : BufTy).Contents (Elt Ideal)) (x16 : (⟨Cert.ReferenceIdeal.S1x64, .f32⟩ : BufTy).Contents (Elt Ideal)) (x17 : (⟨Cert.ReferenceIdeal.S1, .f32⟩ : BufTy).Contents (Elt Ideal))
    (hx0 : m ((c.tc : Thread nD τ).loc main_arg0) = x0) (hx1 : m ((c.tc : Thread nD τ).loc main_arg1) = x1) (hx2 : m ((c.tc : Thread nD τ).loc main_arg2) = x2) (hx3 : m ((c.tc : Thread nD τ).loc main_arg3) = x3) (hx4 : m ((c.tc : Thread nD τ).loc main_arg4) = x4) (hx5 : m ((c.tc : Thread nD τ).loc main_arg5) = x5) (hx6 : m ((c.tc : Thread nD τ).loc main_arg6) = x6) (hx7 : m ((c.tc : Thread nD τ).loc main_arg7) = x7) (hx8 : m ((c.tc : Thread nD τ).loc main_arg8) = x8) (hx9 : m ((c.tc : Thread nD τ).loc main_arg9) = x9) (hx10 : m ((c.tc : Thread nD τ).loc main_arg10) = x10) (hx11 : m ((c.tc : Thread nD τ).loc main_arg11) = x11) (hx12 : m ((c.tc : Thread nD τ).loc main_arg12) = x12) (hx13 : m ((c.tc : Thread nD τ).loc main_arg13) = x13) (hx14 : m ((c.tc : Thread nD τ).loc main_arg14) = x14) (hx15 : m ((c.tc : Thread nD τ).loc main_arg15) = x15) (hx16 : m ((c.tc : Thread nD τ).loc main_arg16) = x16) (hx17 : m ((c.tc : Thread nD τ).loc main_arg17) = x17) :
    W8 (F := Ideal) m c (Proc.devRef .tc main_v0) = Cert.ReferenceIdeal.Read.val_main_v112 (F := Ideal) x0 x1 x2 x3 x4 x5 x6 x7 x8 x9 x10 x11 x12 x13 x14 x15 x16 x17 := by
  obtain ⟨f0, f3, f4, f5, f6, f7, f8, f9⟩ := args_finite m hpre c
  subst hx0 hx3 hx4 hx5 hx6 hx7 hx8 hx9
  have h1 := h1_eq (m := m) (c := c) (hx0 := rfl) (hx1 := hx1) (hx3 := rfl) (hx4 := rfl) (hx5 := rfl) (hx6 := rfl) (hx7 := rfl) (hx8 := rfl)
  exact result_eq (m := m) (c := c) (hx2 := hx2) (hx12 := hx12) (hx13 := hx13) (hx14 := hx14) (hx15 := hx15) (hx16 := hx16) (hx17 := hx17) (hemb := fun n f => emb_eq (m := m) (c := c) (hx1 := hx1) (hx9 := rfl) (hx10 := hx10) (hx11 := hx11) (h1 := h1) (hfin1 := h1_finite _ x1 _ _ _ _ _ _ f0 f3 f4 f5 f6 f7 f8) (hfin9 := f9) (n := n) (f := f))

end Cert.KernelIdeal.Val
end
-- ==== Proof.lean ====
import proofs.«415824_j75625784148324_2_alg».proof.Defs
import proofs.«415824_j75625784148324_2_alg».proof.Proof.Gen.Kernel
import proofs.«415824_j75625784148324_2_alg».proof.Proof.Gen.KernelIdeal
import proofs.«415824_j75625784148324_2_alg».proof.Proof.Gen.ReferenceIdeal
import proofs.«415824_j75625784148324_2_alg».proof.Proof.Gen.Pre_finite_inputs
import proofs.«415824_j75625784148324_2_alg».proof.Proof.Gen.ReferenceIdeal.Run
import proofs.«415824_j75625784148324_2_alg».proof.Proof.Gen.ReferenceIdeal.Read
import proofs.«415824_j75625784148324_2_alg».proof.Proof.K.Frame
import proofs.«415824_j75625784148324_2_alg».proof.Proof.KI.Frame
import proofs.«415824_j75625784148324_2_alg».proof.Proof.Val.Result
import Idealize.ShloMosaic.Adequacy
import Idealize.ShloMosaic.Init

noncomputable section

namespace Cert.Proof

open Idealize.ShloMosaic Idealize.ShloMosaic.TcCoe Idealize.SL.Sem

/-- A frame is the run with its result named, the result dropped. -/
theorem frame_k : Cert.frame_Kernel := fun m ρ _ =>
  (θ_run Cert.Kernel.defs _ _).mono (fun _ h c => (h c).2) (Cert.Kernel.Hand.run_value m ρ)

theorem frame_ki : Cert.frame_KernelIdeal := fun m ρ _ =>
  (θ_run Cert.KernelIdeal.defs _ _).mono (fun _ h c => (h c).2) (Cert.KernelIdeal.Hand.run_value m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at the same 64 values: the kernel's last boundary contents are the reference's result term. -/
theorem algebraic : Cert.algebraic_KernelIdeal_ReferenceIdeal := by
  intro m ρ m' ρ' hpre hagree
  refine ⟨fun c => Cert.KernelIdeal.Hand.W8 (F := Ideal) m c (Proc.devRef .tc Cert.KernelIdeal.main_v0),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v112_eq]
  obtain ⟨h0, h1, h2, h3, h4, h5, h6, h7, h8, h9, h10, h11, h12, h13, h14, h15, h16, h17⟩ := hagree c
  exact (Cert.KernelIdeal.Val.kernel_result m hpre c _ _ _ _ _ _ _ _ _ _ _ _ _ _ _ _ _ _
    h0.symm h1.symm h2.symm h3.symm h4.symm h5.symm h6.symm h7.symm h8.symm
    h9.symm h10.symm h11.symm h12.symm h13.symm h14.symm h15.symm h16.symm h17.symm).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
